-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S512 : Shape := ⟨1, ![512]⟩
abbrev S512x1 : Shape := ⟨2, ![512, 1]⟩
abbrev S50000x64 : Shape := ⟨2, ![50000, 64]⟩
abbrev S10000x128 : Shape := ⟨2, ![10000, 128]⟩
abbrev S10000x1 : Shape := ⟨2, ![10000, 1]⟩
abbrev S10000x64 : Shape := ⟨2, ![10000, 64]⟩
abbrev S800000x64 : Shape := ⟨2, ![800000, 64]⟩
abbrev S1x64 : Shape := ⟨2, ![1, 64]⟩
abbrev S1x2 : Shape := ⟨2, ![1, 2]⟩
abbrev S512x2 : Shape := ⟨2, ![512, 2]⟩
abbrev S512x64 : Shape := ⟨2, ![512, 64]⟩
abbrev S10000x512 : Shape := ⟨2, ![10000, 512]⟩

abbrev nBuf : Space → Nat
  | .hbm => 69
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S_, .f32⟩
  | .hbm, ⟨27, _⟩ => ⟨S512, .f32⟩
  | .hbm, ⟨28, _⟩ => ⟨S50000x1, .i32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512x1, .f32⟩
  | .hbm, ⟨34, _⟩ => ⟨S50000x1, .i32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S1x2, .f32⟩
  | .hbm, ⟨68, _⟩ => ⟨S512x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x1, .f32⟩
  | .local _ .vmem, ⟨12, _⟩ => ⟨S10000x1, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x1, .f32⟩
  | .local _ .vmem, ⟨20, _⟩ => ⟨S10000x1, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .i32⟩
  | .local _ .vmem, ⟨35, _⟩ => ⟨S10000x1, .i32⟩
  | .local _ .vmem, ⟨36, _⟩ => ⟨S64x2, .f32⟩
  | .local _ .vmem, ⟨37, _⟩ => ⟨S1x2, .f32⟩
  | .local _ .vmem, ⟨38, _⟩ => ⟨S512x1, .f32⟩
  | .local _ .vmem, ⟨39, _⟩ => ⟨S512x2, .f32⟩
  | .local _ .vmem, ⟨40, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def k4_cond2 (i : grid4.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S512 : S_.BroadcastsInDim S512 (![] : Fin 0 → Fin S512.rank)
  bcast_S50000_S50000x1_0 : S50000.BroadcastsInDim S50000x1 (![0] : Fin 1 → Fin S50000x1.rank)
  shapeCasts_S512_S512x1 : S512.ShapeCasts S512x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S10000x512_d1_w32 : S10000x512.Iotas .tc 32 [1]
  broadcasts_S10000x1_S10000x512 : S10000x1.Broadcasts S10000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S800000x1_S800000_n_0_0_1_wf : ScatterDims.WF S50000 S800000x1 S800000 [] [0] [0] 1
  scatter_S512_S50000x1_S50000_n_0_0_1_wf : ScatterDims.WF S512 S50000x1 S50000 [] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x512_S10000x64_S512x64_0_0_1_1_n_n_wf : DotDims.WF S10000x512 S10000x64 S512x64 [0] [0] [1] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .f32 = 32 ∨ (Rect.block (s := S50000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S50000x1.size a
  hwx4_1 : ∀ i : grid4.Coords, EltTy.bits .i32 = 32 ∨ (Rect.block (s := S50000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x2.size a ≤ S64x2.size a
  hwx4_2 : ∀ i : grid4.Coords, EltTy.bits .f32 = 32 ∨ (Rect.block (s := S64x2) S64x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S512x1.size a
  hwx4_4 : ∀ i : grid4.Coords, EltTy.bits .f32 = 32 ∨ (Rect.block (s := S512x1) S512x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x2.size a ≤ S512x2.size a
  hwx4_5 : ∀ i : grid4.Coords, EltTy.bits .f32 = 32 ∨ (Rect.block (s := S512x2) S512x2.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x512_S10000x64_S512x64_0_0_1_1_n_n : DotDims S10000x512 S10000x64 S512x64 where
  lhsContracting := [0]
  rhsContracting := [0]
  lhsNonContracting := [1]
  rhsNonContracting := [1]
  lhsBatch := []
  rhsBatch := []
  wf := dot_S10000x512_S10000x64_S512x64_0_0_1_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S512x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47) S512x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x64, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .f32⟩
  | 122 => ⟨S850000x1, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S_, .f32⟩
  | 8 => ⟨S512x64, .f32⟩
  | 9 => ⟨S50000x1, .i32⟩
  | 10 => ⟨S512x64, .f32⟩
  | 11 => ⟨S_, .f32⟩
  | 12 => ⟨S50000, .f32⟩
  | 13 => ⟨S_, .f32⟩
  | 14 => ⟨S512, .f32⟩
  | 15 => ⟨S50000x1, .i32⟩
  | 16 => ⟨S512, .f32⟩
  | 17 => ⟨S_, .f32⟩
  | 18 => ⟨S512, .f32⟩
  | 19 => ⟨S512, .f32⟩
  | 20 => ⟨S512x1, .f32⟩
  | 21 => ⟨S512x64, .f32⟩
  | 22 => ⟨S512x64, .f32⟩
  | 23 => ⟨S512x2, .f32⟩
  | 24 => ⟨S1x2, .f32⟩
  | 25 => ⟨S512x2, .f32⟩
  | 26 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_21 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x2_S512x2_1_0_0_1_n_n_wf : DotDims.WF S512x64 S64x2 S512x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.RegionScale.lean ====
import proofs.«414462_j27805618274378_3_alg».proof.Proof.LaunchKernelIdeal
import proofs.«414462_j27805618274378_3_alg».proof.Proof.Gen.KernelIdeal.Skeleton
import proofs.«414462_j27805618274378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev rX : Rect S10000x128 := Rect.unit (s := S10000x128) ![0, 0] S10000x128.size inb_S10000x128_S10000x128_0_0
private abbrev rW0 : Rect S128x64 := Rect.unit (s := S128x64) ![0, 0] S128x64.size inb_S128x64_S128x64_0_0
private abbrev rW2 : Rect S64x64 := Rect.unit (s := S64x64) ![0, 0] S64x64.size inb_S64x64_S64x64_0_0
private abbrev rD : Rect S10000x1 := Rect.unit (s := S10000x1) ![0, 0] S10000x1.size inb_S10000x1_S10000x1_0_0
private abbrev rH : Rect S10000x64 := Rect.unit (s := S10000x64) ![0, 0] S10000x64.size inb_S10000x64_S10000x64_0_0

private theorem whole (p : Vec F S10000x64 .f32) (y : S10000x64.Idx) :
    ∃ pc ∈ ([⟨rH, p⟩] : List (View.Piece (Elt F) S10000x64 .f32)), y ∈ pc.1.set :=
  View.cover_of_tiled [⟨rH, p⟩] S10000x64.size (by rfl) y

private abbrev Runs {G : Pipeline.Grid} {s0 s1 : Shape} (kern : G.Coords → (a1 : Memref sig .tc .vmem s0 .f32) → a1.IsWhole → (a2 : Memref sig .tc .vmem s1 .f32) → a2.IsWhole
      → (a3 : Memref sig .tc .vmem S10000x1 .f32) → a3.IsWhole → (a4 : Memref sig .tc .vmem S10000x64 .f32) → a4.IsWhole → Prog (TpuEff nD τ sig (Elt F) Λ₀ .tc) PUnit)
    (out : Vec F s0 .f32 → Vec F s1 .f32 → Vec F S10000x1 .f32 → Vec F S10000x64 .f32) : Prop :=
  ∀ (c : Dev nD) (E : Set ℕ) i a1 h1 a2 h2 a3 h3 a4 h4 x0 x1 x2 (K : PUnit → sProp 𝕄),
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out x0 x1 x2)) -∗ K ⟨⟩))
      ⊢ wp frame (wpE (defs₀ (F := F)) Variants.none c none) E (kern i a1 h1 a2 h2 a3 h3 a4 h4) K

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S10000x128 .f32) (x1 : Vec F S128x64 .f32) (x2 : Vec F S10000x1 .f32) : Vec F S10000x64 .f32 :=
  View.canon [⟨rH, k0_pay1 (View.ld x0 rX) (View.ld x1 rW0) (View.ld x2 rD)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

theorem found0_0 (c : Dev nD) (t : Fin cfg0.N) (d) : (dat0 V c).before 0 t d = iblk0 V c 0 t :=
  (dat0 V c).before_in_eq_fetched 0 rfl (fun _ => rfl) (fun _ _ _ => rfl) (fun _ => rfl) t d
theorem found0_1 (c : Dev nD) (t : Fin cfg0.N) (d) : (dat0 V c).before 1 t d = iblk0 V c 1 t :=
  (dat0 V c).before_in_eq_fetched 1 rfl (fun _ => rfl) (fun _ _ _ => rfl) (fun _ => rfl) t d
theorem found0_2 (c : Dev nD) (t : Fin cfg0.N) (d) : (dat0 V c).before 2 t d = iblk0 V c 2 t :=
  (dat0 V c).before_in_eq_fetched 2 rfl (fun _ => rfl) (fun _ _ _ => rfl) (fun _ => rfl) t d

set_option maxHeartbeats 1000000 in
theorem body_run0 : Runs (F := F) cc0__transform_scale_kernel out0_3 := by
  intro c E i arg1 harg1 arg2 harg2 arg3 harg3 arg4 harg4 x0 x1 x2 K
  simp only [cc0__transform_scale_kernel_eq_skeleton]; unfold cc0__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (whole _)

theorem body_obligation0 (c : Dev nD) : BodyObligation (dat0 (F := F) V c) (defs₀ (F := F)) Variants.none () Set.univ := fun t => by
  rw [bigSep_W0, bigSep_W0]
  simp only [found0_0, found0_1, found0_2]
  dsimp only [dat0]
  sl_whnfR [defs₀, Defs.onTc]
  iintro ⟨HΦ, Ho, ⟨%d0, H0⟩, ⟨%d1, H1⟩, ⟨%d2, H2⟩, ⟨%d3, H3⟩⟩
  iapply body_run0
  iframe H0 H1 H2
  isplitl [H3]; · iexists _; iexact H3
  iintro ⟨H0, H1, H2, H3⟩
  iframe
  iexact Ho

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S10000x64 .f32) (x1 : Vec F S64x64 .f32) (x2 : Vec F S10000x1 .f32) : Vec F S10000x64 .f32 :=
  View.canon [⟨rH, k2_pay1 (View.ld x0 rH) (View.ld x1 rW2) (View.ld x2 rD)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

theorem found2_0 (c : Dev nD) (t : Fin cfg2.N) (d) : (dat2 V c).before 0 t d = iblk2 V c 0 t :=
  (dat2 V c).before_in_eq_fetched 0 rfl (fun _ => rfl) (fun _ _ _ => rfl) (fun _ => rfl) t d
theorem found2_1 (c : Dev nD) (t : Fin cfg2.N) (d) : (dat2 V c).before 1 t d = iblk2 V c 1 t :=
  (dat2 V c).before_in_eq_fetched 1 rfl (fun _ => rfl) (fun _ _ _ => rfl) (fun _ => rfl) t d
theorem found2_2 (c : Dev nD) (t : Fin cfg2.N) (d) : (dat2 V c).before 2 t d = iblk2 V c 2 t :=
  (dat2 V c).before_in_eq_fetched 2 rfl (fun _ => rfl) (fun _ _ _ => rfl) (fun _ => rfl) t d

set_option maxHeartbeats 1000000 in
theorem body_run2 : Runs (F := F) cc2__transform_scale_kernel out2_3 := by
  intro c E i arg1 harg1 arg2 harg2 arg3 harg3 arg4 harg4 x0 x1 x2 K
  simp only [cc2__transform_scale_kernel_eq_skeleton]; unfold cc2__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (whole _)

theorem body_obligation2 (c : Dev nD) : BodyObligation (dat2 (F := F) V c) (defs₀ (F := F)) Variants.none () Set.univ := fun t => by
  rw [bigSep_W2, bigSep_W2]
  simp only [found2_0, found2_1, found2_2]
  dsimp only [dat2]
  sl_whnfR [defs₀, Defs.onTc]
  iintro ⟨HΦ, Ho, ⟨%d0, H0⟩, ⟨%d1, H1⟩, ⟨%d2, H2⟩, ⟨%d3, H3⟩⟩
  iapply body_run2
  iframe H0 H1 H2
  isplitl [H3]; · iexists _; iexact H3
  iintro ⟨H0, H1, H2, H3⟩
  iframe
  iexact Ho

end Cert.KernelIdeal.Hand

end
-- ==== Proof.RegionFinal.lean ====
import proofs.«414462_j27805618274378_3_alg».proof.Proof.LaunchKernelIdeal
import proofs.«414462_j27805618274378_3_alg».proof.Proof.Gen.KernelIdeal.Skeleton
import proofs.«414462_j27805618274378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev rF : Rect S10000x64 := Rect.unit (s := S10000x64) ![0, 0] S10000x64.size inb_S10000x64_S10000x64_0_0
private abbrev rD : Rect S10000x1 := Rect.unit (s := S10000x1) ![0, 0] S10000x1.size inb_S10000x1_S10000x1_0_0
private abbrev rB : Rect S1x64 := Rect.unit (s := S1x64) ![0, 0] S1x64.size inb_S1x64_S1x64_0_0

private theorem whole (p : Vec F S10000x64 .f32) (y : S10000x64.Idx) :
    ∃ pc ∈ ([⟨rF, p⟩] : List (View.Piece (Elt F) S10000x64 .f32)), y ∈ pc.1.set :=
  View.cover_of_tiled [⟨rF, p⟩] S10000x64.size (by rfl) y

private abbrev Runs {G : Pipeline.Grid} (kern : G.Coords → (a1 : Memref sig .tc .vmem S10000x64 .f32) → a1.IsWhole → (a2 : Memref sig .tc .vmem S10000x64 .f32) → a2.IsWhole
      → (a3 : Memref sig .tc .vmem S10000x1 .f32) → a3.IsWhole → (a4 : Memref sig .tc .vmem S1x64 .f32) → a4.IsWhole
      → (a5 : Memref sig .tc .vmem S10000x64 .f32) → a5.IsWhole → Prog (TpuEff nD τ sig (Elt F) Λ₀ .tc) PUnit)
    (out : Vec F S10000x64 .f32 → Vec F S10000x64 .f32 → Vec F S10000x1 .f32 → Vec F S1x64 .f32 → Vec F S10000x64 .f32) : Prop :=
  ∀ (c : Dev nD) (E : Set ℕ) i a1 h1 a2 h2 a3 h3 a4 h4 a5 h5 x0 x1 x2 x3 (K : PUnit → sProp 𝕄),
    iprop(owns c.tc a1 fullShare x0 ∗ owns c.tc a2 fullShare x1 ∗ owns c.tc a3 fullShare x2
        ∗ owns c.tc a4 fullShare x3 ∗ (∃ d, owns c.tc a5 fullShare d)
        ∗ (iprop(owns c.tc a1 fullShare x0 ∗ owns c.tc a2 fullShare x1 ∗ owns c.tc a3 fullShare x2
            ∗ owns c.tc a4 fullShare x3 ∗ owns c.tc a5 fullShare (out x0 x1 x2 x3)) -∗ K ⟨⟩))
      ⊢ wp frame (wpE (defs₀ (F := F)) Variants.none c none) E (kern i a1 h1 a2 h2 a3 h3 a4 h4 a5 h5) K

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S10000x64 .f32) (x1 : Vec F S10000x64 .f32) (x2 : Vec F S10000x1 .f32) (x3 : Vec F S1x64 .f32) : Vec F S10000x64 .f32 :=
  View.canon [⟨rF, k1_pay1 (View.ld x0 rF) (View.ld x1 rF) (View.ld x2 rD) (View.ld x3 rB)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by dsimp only [dat1]

theorem found1_0 (c : Dev nD) (t : Fin cfg1.N) (d) : (dat1 V c).before 0 t d = iblk1 V c 0 t :=
  (dat1 V c).before_in_eq_fetched 0 rfl (fun _ => rfl) (fun _ _ _ => rfl) (fun _ => rfl) t d
theorem found1_1 (c : Dev nD) (t : Fin cfg1.N) (d) : (dat1 V c).before 1 t d = iblk1 V c 1 t :=
  (dat1 V c).before_in_eq_fetched 1 rfl (fun _ => rfl) (fun _ _ _ => rfl) (fun _ => rfl) t d
theorem found1_2 (c : Dev nD) (t : Fin cfg1.N) (d) : (dat1 V c).before 2 t d = iblk1 V c 2 t :=
  (dat1 V c).before_in_eq_fetched 2 rfl (fun _ => rfl) (fun _ _ _ => rfl) (fun _ => rfl) t d
theorem found1_3 (c : Dev nD) (t : Fin cfg1.N) (d) : (dat1 V c).before 3 t d = iblk1 V c 3 t :=
  (dat1 V c).before_in_eq_fetched 3 rfl (fun _ => rfl) (fun _ _ _ => rfl) (fun _ => rfl) t d

set_option maxHeartbeats 1000000 in
theorem body_run1 : Runs (F := F) cc1__finalize_kernel out1_4 := by
  intro c E i arg1 harg1 arg2 harg2 arg3 harg3 arg4 harg4 arg5 harg5 x0 x1 x2 x3 K
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; isplitr
  swap; · iexact H4
  ipureintro
  exact View.read_writes_eq_canon _ _ _ (whole _)

theorem body_obligation1 (c : Dev nD) : BodyObligation (dat1 (F := F) V c) (defs₀ (F := F)) Variants.none () Set.univ := fun t => by
  rw [bigSep_W1, bigSep_W1]
  simp only [found1_0, found1_1, found1_2, found1_3]
  dsimp only [dat1]
  sl_whnfR [defs₀, Defs.onTc]
  iintro ⟨HΦ, Ho, ⟨%d0, H0⟩, ⟨%d1, H1⟩, ⟨%d2, H2⟩, ⟨%d3, H3⟩, ⟨%d4, H4⟩⟩
  iapply body_run1
  iframe H0 H1 H2 H3
  isplitl [H4]; · iexists _; iexact H4
  iintro ⟨H0, H1, H2, H3, H4⟩
  iframe
  iexact Ho

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S10000x64 .f32) (x1 : Vec F S10000x64 .f32) (x2 : Vec F S10000x1 .f32) (x3 : Vec F S1x64 .f32) : Vec F S10000x64 .f32 :=
  View.canon [⟨rF, k3_pay1 (View.ld x0 rF) (View.ld x1 rF) (View.ld x2 rD) (View.ld x3 rB)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem after3_4 (c : Dev nD) (t : Fin cfg3.N) : (dat3 V c).after 4 t = out3_4 (iblk3 V c 0 t) (iblk3 V c 1 t) (iblk3 V c 2 t) (iblk3 V c 3 t) := by dsimp only [dat3]

theorem found3_0 (c : Dev nD) (t : Fin cfg3.N) (d) : (dat3 V c).before 0 t d = iblk3 V c 0 t :=
  (dat3 V c).before_in_eq_fetched 0 rfl (fun _ => rfl) (fun _ _ _ => rfl) (fun _ => rfl) t d
theorem found3_1 (c : Dev nD) (t : Fin cfg3.N) (d) : (dat3 V c).before 1 t d = iblk3 V c 1 t :=
  (dat3 V c).before_in_eq_fetched 1 rfl (fun _ => rfl) (fun _ _ _ => rfl) (fun _ => rfl) t d
theorem found3_2 (c : Dev nD) (t : Fin cfg3.N) (d) : (dat3 V c).before 2 t d = iblk3 V c 2 t :=
  (dat3 V c).before_in_eq_fetched 2 rfl (fun _ => rfl) (fun _ _ _ => rfl) (fun _ => rfl) t d
theorem found3_3 (c : Dev nD) (t : Fin cfg3.N) (d) : (dat3 V c).before 3 t d = iblk3 V c 3 t :=
  (dat3 V c).before_in_eq_fetched 3 rfl (fun _ => rfl) (fun _ _ _ => rfl) (fun _ => rfl) t d

set_option maxHeartbeats 1000000 in
theorem body_run3 : Runs (F := F) cc3__finalize_kernel out3_4 := by
  intro c E i arg1 harg1 arg2 harg2 arg3 harg3 arg4 harg4 arg5 harg5 x0 x1 x2 x3 K
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (whole _)

theorem body_obligation3 (c : Dev nD) : BodyObligation (dat3 (F := F) V c) (defs₀ (F := F)) Variants.none () Set.univ := fun t => by
  rw [bigSep_W3, bigSep_W3]
  simp only [found3_0, found3_1, found3_2, found3_3]
  dsimp only [dat3]
  sl_whnfR [defs₀, Defs.onTc]
  iintro ⟨HΦ, Ho, ⟨%d0, H0⟩, ⟨%d1, H1⟩, ⟨%d2, H2⟩, ⟨%d3, H3⟩, ⟨%d4, H4⟩⟩
  iapply body_run3
  iframe H0 H1 H2 H3
  isplitl [H4]; · iexists _; iexact H4
  iintro ⟨H0, H1, H2, H3, H4⟩
  iframe
  iexact Ho

end Cert.KernelIdeal.Hand

end
-- ==== Proof.RegionPool.lean ====
import proofs.«414462_j27805618274378_3_alg».proof.Proof.LaunchKernelIdeal
import proofs.«414462_j27805618274378_3_alg».proof.Proof.Gen.KernelIdeal.Skeleton
import proofs.«414462_j27805618274378_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S512x64 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

abbrev inv4 (c : Dev nD) (X : Vec F S512x64 .f32) : sProp 𝕄 :=
  iprop(owns c.tc (Memref.whole cc4_scratch0) fullShare X
    ∗ Pipeline.scopedRestBut (Ix := Unit) (Name := ℕ) (U := UR sig nD τ) (Lvl := ℕ) (Val := Elt F) spec4 c [cc4_scratch0] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay3 (acc4 V c t.val t.isLt) (iblk4 V c 4 t) (iblk4 V c 2 t) (iblk4 V c 3 t)
  Φ
    | ⟨0, _⟩ => Pipeline.ΦA spec4 c
    | ⟨n + 1, hn⟩ => inv4 c (acc4 V c n (Nat.lt_of_succ_lt_succ hn))
  q _ := fullShare
  owed _ := 0

theorem acc4_zero (c : Dev nD) (hn : 0 < cfg4.N) :
    acc4 V c 0 hn = k4_pay2 (iblk4 V c 1 ⟨0, hn⟩) (iblk4 V c 0 ⟨0, hn⟩) (k4_pay1 (F := F)) := rfl

theorem acc4_succ (c : Dev nD) (n : ℕ) (hn : n + 1 < cfg4.N) :
    acc4 V c (n + 1) hn = k4_pay2 (iblk4 V c 1 ⟨n + 1, hn⟩) (iblk4 V c 0 ⟨n + 1, hn⟩) (acc4 V c n (Nat.lt_of_succ_lt hn)) := rfl

theorem after4_5 (c : Dev nD) (t : Fin cfg4.N) :
    (dat4 V c).after 5 t = k4_pay3 (acc4 V c t.val t.isLt) (iblk4 V c 4 t) (iblk4 V c 2 t) (iblk4 V c 3 t) := by
  dsimp only [dat4]

theorem PhiA4 (c : Dev nD) : (Pipeline.ΦA spec4 c : sProp 𝕄) ⊣⊢ ∃ d, inv4 c d := by
  unfold Pipeline.ΦA; rw [scopedRest4_split]; simp only [← owns_whole, inv4]
  constructor
  · iintro ⟨⟨⟨%d, HS⟩, HR⟩, Hg⟩; iexists d; iframe
  · iintro ⟨%d, HS, HR, Hg⟩; iframe HR Hg; iexists d; iexact HS

theorem hin4 (c : Dev nD) : Pipeline.ΦA spec4 c ⊢ (dat4 (F := F) V c).Φ 0 := .rfl

theorem hout4 (c : Dev nD) : (dat4 (F := F) V c).Φ (Fin.last cfg4.N) ⊢ Pipeline.ΦA spec4 c :=
  (exists_intro (Φ := inv4 c) _).trans (PhiA4 c).2

abbrev cond4_0 (i : grid4.Coords) : Prop := (Scalar.cmpi .ne (Scalar.extui (Scalar.cmpi .eq (BitVec.ofNat 32 (i 0).val) 0#32)) 0#32) = 1#1

abbrev cond4_1 (i : grid4.Coords) : Prop := k4_cond2 i = 1#1

theorem hcond4_0 : ∀ t : Fin cfg4.N, cond4_0 (grid4.coords t) ↔ t.val = 0 := by decide +kernel

theorem excl4 : ∀ t : Fin cfg4.N, cond4_0 (grid4.coords t) → ¬cond4_1 (grid4.coords t) := by decide +kernel

theorem idleAt4_5 : ∀ t : Fin cfg4.N, ¬cond4_1 (grid4.coords t) → cfg4.idle 5 (grid4.coords t) = true ∧ (cfg4.win 5).flush t = false := by decide +kernel

theorem liveAt4_5 : ∀ t : Fin cfg4.N, cond4_1 (grid4.coords t) → cfg4.idle 5 (grid4.coords t) = false := by decide +kernel

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem hz2 : (![0, 0] : Fin 2 → Nat) = fun _ => 0 := by decide

theorem read_store {κ : Kind} {sp : Space} {S : Shape} {e : EltTy} (v : View sig κ sp S e) {off : Fin S.rank → ℕ} (h : off = fun _ => 0) (inb)
    (f : v.ty.Contents (Elt F)) (w) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

theorem run4 (c : Dev nD) (i : grid4.Coords) (arg1 harg1 arg2 harg2 arg3 harg3 arg4 harg4 arg5 harg5 arg6 harg6 arg7 harg7)
    (x0 x1 x2 x3 x4 xo xs) (h01 : cond4_0 i → ¬cond4_1 i) (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare xo
        ∗ owns c.tc arg7 fullShare xs
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare
                (if cond4_1 i then k4_pay3 (k4_pay2 x1 x0 (if cond4_0 i then k4_pay1 (F := F) else xs)) x4 x2 x3 else xo)
            ∗ owns c.tc arg7 fullShare (k4_pay2 x1 x0 (if cond4_0 i then k4_pay1 (F := F) else xs))) -∗ K ⟨⟩))
      ⊢ wp frame (wpE (defs₀ (F := F)) Variants.none c none) E (cc4__pool_linear_kernel i arg1 harg1 arg2 harg2 arg3 harg3 arg4 harg4 arg5 harg5 arg6 harg6 arg7 harg7) K := by
  by_cases hc0 : cond4_0 i <;> by_cases hc1 : cond4_1 i
  · exact absurd hc1 (h01 hc0)
  all_goals
    simp only [cond4_0, cond4_1, hc0, hc1, eq_self, if_true, if_false, cc4__pool_linear_kernel_eq_skeleton]; unfold cc4__pool_linear_kernel_skel owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    subst hf0 hf1 hf2 hf3 hf4 hfo hfs
    sl_exec
    sl_step
    iapply Hk
    isplitl [H0]; swap; isplitl [H1]; swap; isplitl [H2]; swap; isplitl [H3]; swap; isplitl [H4]; swap; isplitl [HO]
    all_goals (iexists _; isplitr; swap; iassumption; ipureintro; try sl_unfold_words)
    all_goals simp only [read_store arg6.view hz2, read_store arg7.view hz2, View.readCov_unit_zero (S := S512x64) _ hz2, View.readAt_eq_ld,
      View.ld_unit_zero (S := S10000x64) hz2, View.ld_unit_zero (S := S10000x1) hz2, View.ld_unit_zero (S := S512x64) hz2,
      View.ld_unit_zero (S := S64x2) hz2, View.ld_unit_zero (S := S1x2) hz2, View.ld_unit_zero (S := S512x1) hz2]

theorem Phi4_open (c : Dev nD) (t : Fin cfg4.N) :
    (dat4 V c).Φ t.castSucc ⊢ ∃ xs, ⌜k4_pay2 (iblk4 V c 1 t) (iblk4 V c 0 t) (if cond4_0 (grid4.coords t) then k4_pay1 (F := F) else xs)
      = acc4 V c t.val t.isLt⌝ ∗ inv4 c xs := by
  obtain ⟨n, hn⟩ := t
  cases n with
  | zero =>
    refine (PhiA4 c).1.trans ?_
    iintro ⟨%d, H⟩; iexists d; isplitr; · ipureintro; rw [if_pos ((hcond4_0 _).mpr rfl)]; rfl
    iexact H
  | succ n =>
    change inv4 c (acc4 V c n _) ⊢ _
    iintro H; iexists _; isplitr; · ipureintro; rw [if_neg fun h => Nat.succ_ne_zero n ((hcond4_0 _).mp h)]; rfl
    iexact H

theorem leaves4_5 (c : Dev nD) (t : Fin cfg4.N) (d) :
    owns c.tc (win4_5.stage (cfg4.slots t 5)) fullShare
        (if cond4_1 (grid4.coords t) then (dat4 V c).after 5 t else (dat4 V c).before 5 t d) ⊢ (dat4 V c).leavesExact 5 t := by
  by_cases h : cond4_1 (grid4.coords t)
  · rw [if_pos h]; unfold Dat.leavesExact; rw [liveAt4_5 t h]
  · rw [if_neg h, Dat.leavesExact_idle _ 5 t (idleAt4_5 t h).1 (idleAt4_5 t h).2]; iintro H; iexists d; iexact H

theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) fun _ =>
        iprop(inv4 c (acc4 V c t.val t.isLt) ∗ (dat4 V c).owesAt () t.castSucc
          ∗ owns c.tc (win4_0.stage (cfg4.slots t 0)) fullShare (iblk4 V c 0 t)
          ∗ owns c.tc (win4_1.stage (cfg4.slots t 1)) fullShare (iblk4 V c 1 t)
          ∗ owns c.tc (win4_2.stage (cfg4.slots t 2)) fullShare (iblk4 V c 2 t)
          ∗ owns c.tc (win4_3.stage (cfg4.slots t 3)) fullShare (iblk4 V c 3 t)
          ∗ owns c.tc (win4_4.stage (cfg4.slots t 4)) fullShare (iblk4 V c 4 t)
          ∗ (dat4 V c).leavesExact 5 t)
  simp only [before4_0, before4_1, before4_2, before4_3, before4_4, inv4]
  iintro ⟨HΦ, Ho, ⟨%d0, H0⟩, ⟨%d1, H1⟩, ⟨%d2, H2⟩, ⟨%d3, H3⟩, ⟨%d4, H4⟩, ⟨%d5, H5⟩⟩
  icases (Phi4_open V c t) $$ HΦ with ⟨%xs, %hx, HS, HR⟩
  iapply (run4 c (grid4.coords t) _ _ _ _ _ _ _ _ _ _ _ _ _ _ (iblk4 V c 0 t) (iblk4 V c 1 t) (iblk4 V c 2 t) (iblk4 V c 3 t) (iblk4 V c 4 t)
    ((dat4 V c).before 5 t d5) xs (excl4 t) Set.univ _)
  iframe H0 H1 H2 H3 H4 H5 HS
  iintro ⟨H0, H1, H2, H3, H4, H5, HS⟩
  rw [hx, ← after4_5]
  iframe HS HR Ho H0 H1 H2 H3 H4
  iapply (leaves4_5 V c t d5) $$ H5

end Cert.KernelIdeal.Hand

end
-- ==== Proof.Fold.lean ====
import proofs.«414462_j27805618274378_3_alg».proof.Proof.RegionScale
import proofs.«414462_j27805618274378_3_alg».proof.Proof.RegionFinal
import proofs.«414462_j27805618274378_3_alg».proof.Proof.RegionPool

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b

abbrev W6 : Dev nD → Valuation τ sig (Elt F) := fun c => StableHlo.after hostOps3 (W5 m c)
abbrev V6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (V6 m) c).arrAt w cfg3.N
abbrev V7 : (c : Dev nD) → (b : Ref sig .tc) → Buf (Elt F) ((c : Thread nD τ).loc b) := fun c b => W7 m c b

abbrev W8 : Dev nD → Valuation τ sig (Elt F) := fun c => StableHlo.after hostOps4 (W7 m c)
abbrev V8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (V8 m) c).arrAt w cfg4.N

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb

end Cert.KernelIdeal.Hand

end
-- ==== Proof.Run.lean ====
import proofs.«414462_j27805618274378_3_alg».proof.Proof.Fold

set_option maxRecDepth 16384

noncomputable section

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Cert.KernelIdeal.Hand.Run

abbrev written0 : List (Ref sig .tc) :=
  [main_v0, main_v1, main_v2, main_v3, main_cst, main_v4, main_cst_0, main_v5, main_v6, main_v7, main_cst_1, main_v8,
   main_v9, main_v10, main_v11, main_cst_2, main_v12, main_cst_3, main_v13, main_v14, main_v15, main_cst_4, main_v16,
   main_v17, main_v18, main_v19]

abbrev written1 : List (Ref sig .tc) :=
  [main_c, main_v21, main_v22, main_c_5, main_v23, main_v24, main_v25, main_v26, main_v27, main_cst_6, main_v28,
   main_v29, main_v30, main_v31]

abbrev written3 : List (Ref sig .tc) :=
  [main_c_7, main_v34, main_v35, main_c_8, main_v36, main_v37, main_v38, main_v39, main_v40, main_cst_9, main_v41,
   main_v42, main_v43, main_v44]

abbrev written4 : List (Ref sig .tc) := [main_v46]

-- Each operation of a host stretch writes only its own result buffer.
theorem writes :
    ((hostOps0 : List (HloOp τ sig (Elt F))).Forall fun op => op.writes ⊆ (written0.map (Proc.devRef (τ := τ) .tc)).toFinset)
    ∧ ((hostOps1 : List (HloOp τ sig (Elt F))).Forall fun op => op.writes ⊆ (written1.map (Proc.devRef (τ := τ) .tc)).toFinset)
    ∧ ((hostOps3 : List (HloOp τ sig (Elt F))).Forall fun op => op.writes ⊆ (written3.map (Proc.devRef (τ := τ) .tc)).toFinset)
    ∧ ((hostOps4 : List (HloOp τ sig (Elt F))).Forall fun op => op.writes ⊆ (written4.map (Proc.devRef (τ := τ) .tc)).toFinset) := by
  refine ⟨?_, ?_, ?_, ?_⟩ <;>
  · simp only [hostOps0, hostOps1, hostOps3, hostOps4, List.Forall, StableHlo.nullary_writes, StableHlo.unary_writes,
      StableHlo.binary_writes, StableHlo.ternary_writes, StableHlo.reshape_writes, Finset.singleton_subset_iff, List.mem_toFinset]
    repeat' apply And.intro
    all_goals exact List.mem_map_of_mem (by decide)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

abbrev noTable : (p : Fin 5) → (pcfgs (F := F) p).Adm := fun p => (cfgs p).toPCfg_adm

abbrev cfgOf (p : Fin 5) := Pipeline.pin (pcfgs (F := F)) noTable p

def datOf : (p : Fin 5) → (c : Dev nD) → Dat τ (Elt F) Unit ℕ (UR sig nD τ) ℕ (cfgOf (F := F) p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c

section Region

variable (p : Fin 5) (Win Wout : Dev nD → Valuation τ sig (Elt F))
  (hA : ∀ c w, (datOf m p c).A w = Win c (Proc.devRef .tc (Pipeline.arrRef (cfgOf (F := F) p).spec w)))
  (hF : ∀ c w, Wout c (Proc.devRef .tc (Pipeline.arrRef (cfgOf (F := F) p).spec w)) = (datOf m p c).arrAt w (cfgOf (F := F) p).N)
  (hrest : ∀ c (b : Ref sig .tc), (∀ w, Pipeline.arrRef (cfgOf (F := F) p).spec w ≠ b) →
    Wout c (Proc.devRef .tc b) = Win c (Proc.devRef .tc b))

-- A region changes no buffer other than the arrays of its output windows.
include hA hF hrest in
theorem kept (c : Dev nD) (r : Ref sig .tc)
    (h : ∀ w, ((cfgOf (F := F) p).win w).isOut = true → Pipeline.arrRef (cfgOf (F := F) p).spec w ≠ r) :
    Wout c (Proc.devRef .tc r) = Win c (Proc.devRef .tc r) := by
  by_cases hr : ∃ w, Pipeline.arrRef (cfgOf (F := F) p).spec w = r
  · obtain ⟨w, rfl⟩ := hr
    have hin : ((cfgOf (F := F) p).win w).isOut = false := by
      cases hw : ((cfgOf (F := F) p).win w).isOut
      · rfl
      · exact absurd rfl (h w hw)
    exact (hF c w).trans (((datOf m p c).arrAt_in w hin _).trans (hA c w))
  · exact hrest c r fun w e => hr ⟨w, e⟩

abbrev noLevel : GSem nD τ sig → Finset Unit := fun _ => ∅
abbrev levelZero : GSem nD τ sig → Unit → ℕ := fun _ _ => 0

abbrev beside (c : Dev nD) : sProp 𝕄 :=
  iprop((∃ r, prngReg c r) ∗ ∃ W, owes (c : Thread nD τ) (0 : CellTallies nD τ sig Unit) W)

abbrev heldAt (W : Dev nD → Valuation τ sig (Elt F)) (c : Dev nD) : sProp 𝕄 :=
  iprop(StableHlo.held (c : Thread nD τ) (Pipeline.ucRefs τ sig) (W c) ∗ beside c)

-- A region as a segment of @main: entered with the buffers at `Win`, left with them at `Wout`.
set_option backward.isDefEq.respectTransparency.types false in
def regionOf (hw : Pipeline.WinFacts (cfgOf (F := F) p).spec) (harr : ∀ w, ((cfgOf (F := F) p).spec w).arr.IsWhole)
    (hpos : ∀ w : Fin (cfgOf (F := F) p).W, 0 < ((cfgOf (F := F) p).spec w).block.numel)
    (hstage : ∀ (w : Fin (cfgOf (F := F) p).W) (s : Fin ((cfgOf (F := F) p).spec w).nbuf), (((cfgOf (F := F) p).spec w).stage s).IsWhole)
    (hbody : ∀ c, Pipeline.BodyObligationLoose (datOf m p c) (defs₀ (F := F)) Variants.none () Set.univ)
    (hshare : ∀ c w, (datOf m p c).share w = fullShare) (howed : ∀ c t, (datOf m p c).owed t = 0)
    (hrec : ∀ c, (datOf m p c).recorded 0 = Set.univ)
    (hΦin : ∀ c, (Pipeline.ΦA (cfgOf (F := F) p).spec c : sProp 𝕄) ⊢ (datOf m p c).Φ 0)
    (hΦout : ∀ c, (datOf m p c).Φ (Fin.last (cfgOf (F := F) p).N) ⊢ (Pipeline.ΦA (cfgOf (F := F) p).spec c : sProp 𝕄)) :
    Pipeline.RegionSeg (pcfgs (F := F)) noTable (datOf m) () defs₀ Variants.none noLevel levelZero p where
  win := hw.to₀
  block_pos := hpos
  stage_whole := hstage
  K := PEmpty
  osem k := k.elim
  ho := Pipeline.OwnSemFacts.none _
  hbody := hbody
  hwaits := Pipeline.hwaits_of_owed_zero _ _ _ _ noLevel levelZero p howed
  pre := heldAt Win
  post := heldAt Wout
  X c := iprop(∃ r, prngReg c r)
  Y c := iprop(∃ r, prngReg c r)
  Z c := Pipeline.unscopedRest (Ix := Unit) (Name := ℕ) (U := UR sig nD τ) (Lvl := ℕ) (cfgOf (F := F) p).spec c fun b => Win c b
  hentry c := by
    rw [Pipeline.ownSems0_none]
    have hsplit := Pipeline.arrays_of_unscopedBufs (p := p) (pcfgs (F := F)) noTable (datOf m) hw harr c (hshare c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) noTable (Ix := Unit) (Name := ℕ) (U := UR sig nD τ) (Lvl := ℕ)
      hw harr c (datOf m) (hshare c) (fun b => Win c b) (fun b => Wout c b) ((datOf m p c).arrAt · (cfgOf (F := F) p).N)
      (fun w => (hF c w).symm) fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Region

-- A buffer that no stretch writes and no region outputs holds at the return what it held at launch.
theorem W9_as_launched (c : Dev nD) (r : Ref sig .tc)
    (h : r ∉ written0 ∧ r ∉ written1 ∧ r ∉ written3 ∧ r ∉ written4
      ∧ (∀ w, (cfg0.win w).isOut = true → Pipeline.arrRef spec0 w ≠ r) ∧ (∀ w, (cfg1.win w).isOut = true → Pipeline.arrRef spec1 w ≠ r)
      ∧ (∀ w, (cfg2.win w).isOut = true → Pipeline.arrRef spec2 w ≠ r) ∧ (∀ w, (cfg3.win w).isOut = true → Pipeline.arrRef spec3 w ≠ r)
      ∧ (∀ w, (cfg4.win w).isOut = true → Pipeline.arrRef spec4 w ≠ r)) :
    W9 m c (Proc.devRef .tc r) = m ((c : Thread nD τ).loc r) :=
  calc W9 m c (Proc.devRef .tc r)
    _ = W8 m c (Proc.devRef .tc r) := kept m 4 (W8 m) (W9 m) (fun _ _ => rfl) (W9_arr m) (W9_of_ne m) c r h.2.2.2.2.2.2.2.2
    _ = W7 m c (Proc.devRef .tc r) := StableHlo.after_of_writes_sub hostOps4 _ writes.2.2.2 h.2.2.2.1
    _ = W6 m c (Proc.devRef .tc r) := kept m 3 (W6 m) (W7 m) (fun _ _ => rfl) (W7_arr m) (W7_of_ne m) c r h.2.2.2.2.2.2.2.1
    _ = W5 m c (Proc.devRef .tc r) := StableHlo.after_of_writes_sub hostOps3 _ writes.2.2.1 h.2.2.1
    _ = W4 m c (Proc.devRef .tc r) := kept m 2 (W4 m) (W5 m) (fun _ _ => rfl) (W5_arr m) (W5_of_ne m) c r h.2.2.2.2.2.2.1
    _ = W3 m c (Proc.devRef .tc r) := kept m 1 (W3 m) (W4 m) (fun _ _ => rfl) (W4_arr m) (W4_of_ne m) c r h.2.2.2.2.2.1
    _ = W2 m c (Proc.devRef .tc r) := StableHlo.after_of_writes_sub hostOps1 _ writes.2.1 h.2.1
    _ = W1 m c (Proc.devRef .tc r) := kept m 0 (W1 m) (W2 m) (fun _ _ => rfl) (W2_arr m) (W2_of_ne m) c r h.2.2.2.2.1
    _ = W0 m c (Proc.devRef .tc r) := StableHlo.after_of_writes_sub hostOps0 _ writes.1 h.1
    _ = m ((c : Thread nD τ).loc r) := rfl

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevel levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

abbrev atReturn (c : Dev nD) : sProp 𝕄 :=
  iprop(StableHlo.held (c : Thread nD τ) (Pipeline.ucRefs τ sig) (W9 m c) ∗ ∃ r, prngReg c r)

set_option backward.isDefEq.respectTransparency.types false in
abbrev segments : List (Pipeline.Seg (pcfgs (F := F)) noTable (datOf m) () defs₀ Variants.none noLevel levelZero) :=
  [ .host (stretch hostOps0 hostOps0_sub hostOps0_fresh (W0 m)),
    .region (regionOf m 0 (W1 m) (W2 m) (fun _ _ => rfl) (W2_arr m) (W2_of_ne m) launch0.win launch0.arr_whole launch0.block_pos
      launch0.stage_whole (fun c => (body_obligation0 (V1 m) c).loose) (fun c => (datOf m 0 c).share_full fun _ => rfl)
      (fun _ _ => rfl) (fun _ => rfl) (fun _ => .rfl) fun _ => .rfl),
    .host (stretch hostOps1 hostOps1_sub hostOps1_fresh (W2 m)),
    .region (regionOf m 1 (W3 m) (W4 m) (fun _ _ => rfl) (W4_arr m) (W4_of_ne m) launch1.win launch1.arr_whole launch1.block_pos
      launch1.stage_whole (fun c => (body_obligation1 (V3 m) c).loose) (fun c => (datOf m 1 c).share_full fun _ => rfl)
      (fun _ _ => rfl) (fun _ => rfl) (fun _ => .rfl) fun _ => .rfl),
    .region (regionOf m 2 (W4 m) (W5 m) (fun _ _ => rfl) (W5_arr m) (W5_of_ne m) launch2.win launch2.arr_whole launch2.block_pos
      launch2.stage_whole (fun c => (body_obligation2 (V4 m) c).loose) (fun c => (datOf m 2 c).share_full fun _ => rfl)
      (fun _ _ => rfl) (fun _ => rfl) (fun _ => .rfl) fun _ => .rfl),
    .host (stretch hostOps3 hostOps3_sub hostOps3_fresh (W5 m)),
    .region (regionOf m 3 (W6 m) (W7 m) (fun _ _ => rfl) (W7_arr m) (W7_of_ne m) launch3.win launch3.arr_whole launch3.block_pos
      launch3.stage_whole (fun c => (body_obligation3 (V6 m) c).loose) (fun c => (datOf m 3 c).share_full fun _ => rfl)
      (fun _ _ => rfl) (fun _ => rfl) (fun _ => .rfl) fun _ => .rfl),
    .host (stretch hostOps4 hostOps4_sub hostOps4_fresh (W7 m)),
    .region (regionOf m 4 (W8 m) (W9 m) (fun _ _ => rfl) (W9_arr m) (W9_of_ne m) launch4.win launch4.arr_whole launch4.block_pos
      launch4.stage_whole (fun c => (body_obligation4 (V8 m) c).loose) (fun c => (datOf m 4 c).share_full fun _ => rfl)
      (fun _ _ => rfl) (fun _ => rfl) (hin4 (V8 m)) (hout4 (V8 m))) ]

theorem main_is_segments (c : Dev nD) : main (F := F) c = Pipeline.Seg.run (segments m) :=
  (main_chain c).trans (by chain_rfl)

end Cert.KernelIdeal.Hand.Run

namespace Cert.KernelIdeal.Hand

open Cert.KernelIdeal.Hand.Run

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every weakly fair execution of @main terminates, and the buffers then hold `W9`.
set_option backward.isDefEq.respectTransparency.types false in
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) noTable (datOf m) () cellOf_inj emb₁ defs₀ Variants.none noLevel levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach noLevel levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

-- The result array ends at `W9`'s contents there, and the nine arguments as launched.
theorem result_run (ρ : Dev nD → PrngReg) : θ_run defs (onTc (τ := τ) (main (F := F))) ⟨m, fun _ => 0, ρ⟩ (fun r => ∀ c : Dev nD,
      r.2.mem ((c.tc : Thread nD τ).loc main_v47) = W9 m c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨h c _ (mem_uc main_v47 (by decide)),
     (h c _ (mem_uc main_arg0 (by decide))).trans (W9_as_launched m c _ (by decide)),
     (h c _ (mem_uc main_arg1 (by decide))).trans (W9_as_launched m c _ (by decide)),
     (h c _ (mem_uc main_arg2 (by decide))).trans (W9_as_launched m c _ (by decide)),
     (h c _ (mem_uc main_arg3 (by decide))).trans (W9_as_launched m c _ (by decide)),
     (h c _ (mem_uc main_arg4 (by decide))).trans (W9_as_launched m c _ (by decide)),
     (h c _ (mem_uc main_arg5 (by decide))).trans (W9_as_launched m c _ (by decide)),
     (h c _ (mem_uc main_arg6 (by decide))).trans (W9_as_launched m c _ (by decide)),
     (h c _ (mem_uc main_arg7 (by decide))).trans (W9_as_launched m c _ (by decide)),
     (h c _ (mem_uc main_arg8 (by decide))).trans (W9_as_launched m c _ (by decide))⟩) (run_main m ρ)

end Cert.KernelIdeal.Hand

end
-- ==== Proof.RegionScaleBits.lean ====
import proofs.«414462_j27805618274378_3_alg».proof.Proof.LaunchKernel
import proofs.«414462_j27805618274378_3_alg».proof.Proof.Gen.Kernel.Skeleton
import proofs.«414462_j27805618274378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev rX : Rect S10000x128 := Rect.unit (s := S10000x128) ![0, 0] S10000x128.size inb_S10000x128_S10000x128_0_0
private abbrev rW0 : Rect S128x64 := Rect.unit (s := S128x64) ![0, 0] S128x64.size inb_S128x64_S128x64_0_0
private abbrev rW2 : Rect S64x64 := Rect.unit (s := S64x64) ![0, 0] S64x64.size inb_S64x64_S64x64_0_0
private abbrev rD : Rect S10000x1 := Rect.unit (s := S10000x1) ![0, 0] S10000x1.size inb_S10000x1_S10000x1_0_0
private abbrev rH : Rect S10000x64 := Rect.unit (s := S10000x64) ![0, 0] S10000x64.size inb_S10000x64_S10000x64_0_0

private theorem whole (p : Vec F S10000x64 .f32) (y : S10000x64.Idx) :
    ∃ pc ∈ ([⟨rH, p⟩] : List (View.Piece (Elt F) S10000x64 .f32)), y ∈ pc.1.set :=
  View.cover_of_tiled [⟨rH, p⟩] S10000x64.size (by rfl) y

private abbrev Runs {G : Pipeline.Grid} {s0 s1 : Shape} (kern : G.Coords → (a1 : Memref sig .tc .vmem s0 .f32) → a1.IsWhole → (a2 : Memref sig .tc .vmem s1 .f32) → a2.IsWhole
      → (a3 : Memref sig .tc .vmem S10000x1 .f32) → a3.IsWhole → (a4 : Memref sig .tc .vmem S10000x64 .f32) → a4.IsWhole → Prog (TpuEff nD τ sig (Elt F) Λ₀ .tc) PUnit)
    (out : Vec F s0 .f32 → Vec F s1 .f32 → Vec F S10000x1 .f32 → Vec F S10000x64 .f32) : Prop :=
  ∀ (c : Dev nD) (E : Set ℕ) i a1 h1 a2 h2 a3 h3 a4 h4 x0 x1 x2 (K : PUnit → sProp 𝕄),
    iprop(owns c.tc a1 fullShare x0 ∗ owns c.tc a2 fullShare x1 ∗ owns c.tc a3 fullShare x2 ∗ (∃ d, owns c.tc a4 fullShare d)
        ∗ (iprop(owns c.tc a1 fullShare x0 ∗ owns c.tc a2 fullShare x1 ∗ owns c.tc a3 fullShare x2 ∗ owns c.tc a4 fullShare (out x0 x1 x2)) -∗ K ⟨⟩))
      ⊢ wp frame (wpE (defs₀ (F := F)) Variants.none c none) E (kern i a1 h1 a2 h2 a3 h3 a4 h4) K

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S10000x128 .f32) (x1 : Vec F S128x64 .f32) (x2 : Vec F S10000x1 .f32) : Vec F S10000x64 .f32 :=
  View.canon [⟨rH, k0_pay1 (View.ld x0 rX) (View.ld x1 rW0) (View.ld x2 rD)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

theorem found0_0 (c : Dev nD) (t : Fin cfg0.N) (d) : (dat0 V c).before 0 t d = iblk0 V c 0 t :=
  (dat0 V c).before_in_eq_fetched 0 rfl (fun _ => rfl) (fun _ _ _ => rfl) (fun _ => rfl) t d
theorem found0_1 (c : Dev nD) (t : Fin cfg0.N) (d) : (dat0 V c).before 1 t d = iblk0 V c 1 t :=
  (dat0 V c).before_in_eq_fetched 1 rfl (fun _ => rfl) (fun _ _ _ => rfl) (fun _ => rfl) t d
theorem found0_2 (c : Dev nD) (t : Fin cfg0.N) (d) : (dat0 V c).before 2 t d = iblk0 V c 2 t :=
  (dat0 V c).before_in_eq_fetched 2 rfl (fun _ => rfl) (fun _ _ _ => rfl) (fun _ => rfl) t d

set_option maxHeartbeats 1000000 in
theorem body_run0 : Runs (F := F) cc0__transform_scale_kernel out0_3 := by
  intro c E i arg1 harg1 arg2 harg2 arg3 harg3 arg4 harg4 x0 x1 x2 K
  simp only [cc0__transform_scale_kernel_eq_skeleton]; unfold cc0__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (whole _)

theorem body_obligation0 (c : Dev nD) : BodyObligation (dat0 (F := F) V c) (defs₀ (F := F)) Variants.none () Set.univ := fun t => by
  rw [bigSep_W0, bigSep_W0]
  simp only [found0_0, found0_1, found0_2]
  dsimp only [dat0]
  sl_whnfR [defs₀, Defs.onTc]
  iintro ⟨HΦ, Ho, ⟨%d0, H0⟩, ⟨%d1, H1⟩, ⟨%d2, H2⟩, ⟨%d3, H3⟩⟩
  iapply body_run0
  iframe H0 H1 H2
  isplitl [H3]; · iexists _; iexact H3
  iintro ⟨H0, H1, H2, H3⟩
  iframe
  iexact Ho

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S10000x64 .f32) (x1 : Vec F S64x64 .f32) (x2 : Vec F S10000x1 .f32) : Vec F S10000x64 .f32 :=
  View.canon [⟨rH, k2_pay1 (View.ld x0 rH) (View.ld x1 rW2) (View.ld x2 rD)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

theorem found2_0 (c : Dev nD) (t : Fin cfg2.N) (d) : (dat2 V c).before 0 t d = iblk2 V c 0 t :=
  (dat2 V c).before_in_eq_fetched 0 rfl (fun _ => rfl) (fun _ _ _ => rfl) (fun _ => rfl) t d
theorem found2_1 (c : Dev nD) (t : Fin cfg2.N) (d) : (dat2 V c).before 1 t d = iblk2 V c 1 t :=
  (dat2 V c).before_in_eq_fetched 1 rfl (fun _ => rfl) (fun _ _ _ => rfl) (fun _ => rfl) t d
theorem found2_2 (c : Dev nD) (t : Fin cfg2.N) (d) : (dat2 V c).before 2 t d = iblk2 V c 2 t :=
  (dat2 V c).before_in_eq_fetched 2 rfl (fun _ => rfl) (fun _ _ _ => rfl) (fun _ => rfl) t d

set_option maxHeartbeats 1000000 in
theorem body_run2 : Runs (F := F) cc2__transform_scale_kernel out2_3 := by
  intro c E i arg1 harg1 arg2 harg2 arg3 harg3 arg4 harg4 x0 x1 x2 K
  simp only [cc2__transform_scale_kernel_eq_skeleton]; unfold cc2__transform_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (whole _)

theorem body_obligation2 (c : Dev nD) : BodyObligation (dat2 (F := F) V c) (defs₀ (F := F)) Variants.none () Set.univ := fun t => by
  rw [bigSep_W2, bigSep_W2]
  simp only [found2_0, found2_1, found2_2]
  dsimp only [dat2]
  sl_whnfR [defs₀, Defs.onTc]
  iintro ⟨HΦ, Ho, ⟨%d0, H0⟩, ⟨%d1, H1⟩, ⟨%d2, H2⟩, ⟨%d3, H3⟩⟩
  iapply body_run2
  iframe H0 H1 H2
  isplitl [H3]; · iexists _; iexact H3
  iintro ⟨H0, H1, H2, H3⟩
  iframe
  iexact Ho

end Cert.Kernel.Hand

end
-- ==== Proof.RegionFinalBits.lean ====
import proofs.«414462_j27805618274378_3_alg».proof.Proof.LaunchKernel
import proofs.«414462_j27805618274378_3_alg».proof.Proof.Gen.Kernel.Skeleton
import proofs.«414462_j27805618274378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private abbrev rF : Rect S10000x64 := Rect.unit (s := S10000x64) ![0, 0] S10000x64.size inb_S10000x64_S10000x64_0_0
private abbrev rD : Rect S10000x1 := Rect.unit (s := S10000x1) ![0, 0] S10000x1.size inb_S10000x1_S10000x1_0_0
private abbrev rB : Rect S1x64 := Rect.unit (s := S1x64) ![0, 0] S1x64.size inb_S1x64_S1x64_0_0

private theorem whole (p : Vec F S10000x64 .f32) (y : S10000x64.Idx) :
    ∃ pc ∈ ([⟨rF, p⟩] : List (View.Piece (Elt F) S10000x64 .f32)), y ∈ pc.1.set :=
  View.cover_of_tiled [⟨rF, p⟩] S10000x64.size (by rfl) y

private abbrev Runs {G : Pipeline.Grid} (kern : G.Coords → (a1 : Memref sig .tc .vmem S10000x64 .f32) → a1.IsWhole → (a2 : Memref sig .tc .vmem S10000x64 .f32) → a2.IsWhole
      → (a3 : Memref sig .tc .vmem S10000x1 .f32) → a3.IsWhole → (a4 : Memref sig .tc .vmem S1x64 .f32) → a4.IsWhole
      → (a5 : Memref sig .tc .vmem S10000x64 .f32) → a5.IsWhole → Prog (TpuEff nD τ sig (Elt F) Λ₀ .tc) PUnit)
    (out : Vec F S10000x64 .f32 → Vec F S10000x64 .f32 → Vec F S10000x1 .f32 → Vec F S1x64 .f32 → Vec F S10000x64 .f32) : Prop :=
  ∀ (c : Dev nD) (E : Set ℕ) i a1 h1 a2 h2 a3 h3 a4 h4 a5 h5 x0 x1 x2 x3 (K : PUnit → sProp 𝕄),
    iprop(owns c.tc a1 fullShare x0 ∗ owns c.tc a2 fullShare x1 ∗ owns c.tc a3 fullShare x2
        ∗ owns c.tc a4 fullShare x3 ∗ (∃ d, owns c.tc a5 fullShare d)
        ∗ (iprop(owns c.tc a1 fullShare x0 ∗ owns c.tc a2 fullShare x1 ∗ owns c.tc a3 fullShare x2
            ∗ owns c.tc a4 fullShare x3 ∗ owns c.tc a5 fullShare (out x0 x1 x2 x3)) -∗ K ⟨⟩))
      ⊢ wp frame (wpE (defs₀ (F := F)) Variants.none c none) E (kern i a1 h1 a2 h2 a3 h3 a4 h4 a5 h5) K

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S10000x64 .f32) (x1 : Vec F S10000x64 .f32) (x2 : Vec F S10000x1 .f32) (x3 : Vec F S1x64 .f32) : Vec F S10000x64 .f32 :=
  View.canon [⟨rF, k1_pay1 (View.ld x0 rF) (View.ld x1 rF) (View.ld x2 rD) (View.ld x3 rB)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by dsimp only [dat1]

theorem found1_0 (c : Dev nD) (t : Fin cfg1.N) (d) : (dat1 V c).before 0 t d = iblk1 V c 0 t :=
  (dat1 V c).before_in_eq_fetched 0 rfl (fun _ => rfl) (fun _ _ _ => rfl) (fun _ => rfl) t d
theorem found1_1 (c : Dev nD) (t : Fin cfg1.N) (d) : (dat1 V c).before 1 t d = iblk1 V c 1 t :=
  (dat1 V c).before_in_eq_fetched 1 rfl (fun _ => rfl) (fun _ _ _ => rfl) (fun _ => rfl) t d
theorem found1_2 (c : Dev nD) (t : Fin cfg1.N) (d) : (dat1 V c).before 2 t d = iblk1 V c 2 t :=
  (dat1 V c).before_in_eq_fetched 2 rfl (fun _ => rfl) (fun _ _ _ => rfl) (fun _ => rfl) t d
theorem found1_3 (c : Dev nD) (t : Fin cfg1.N) (d) : (dat1 V c).before 3 t d = iblk1 V c 3 t :=
  (dat1 V c).before_in_eq_fetched 3 rfl (fun _ => rfl) (fun _ _ _ => rfl) (fun _ => rfl) t d

set_option maxHeartbeats 1000000 in
theorem body_run1 : Runs (F := F) cc1__finalize_kernel out1_4 := by
  intro c E i arg1 harg1 arg2 harg2 arg3 harg3 arg4 harg4 arg5 harg5 x0 x1 x2 x3 K
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; isplitr
  swap; · iexact H4
  ipureintro
  exact View.read_writes_eq_canon _ _ _ (whole _)

theorem body_obligation1 (c : Dev nD) : BodyObligation (dat1 (F := F) V c) (defs₀ (F := F)) Variants.none () Set.univ := fun t => by
  rw [bigSep_W1, bigSep_W1]
  simp only [found1_0, found1_1, found1_2, found1_3]
  dsimp only [dat1]
  sl_whnfR [defs₀, Defs.onTc]
  iintro ⟨HΦ, Ho, ⟨%d0, H0⟩, ⟨%d1, H1⟩, ⟨%d2, H2⟩, ⟨%d3, H3⟩, ⟨%d4, H4⟩⟩
  iapply body_run1
  iframe H0 H1 H2 H3
  isplitl [H4]; · iexists _; iexact H4
  iintro ⟨H0, H1, H2, H3, H4⟩
  iframe
  iexact Ho

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S10000x64 .f32) (x1 : Vec F S10000x64 .f32) (x2 : Vec F S10000x1 .f32) (x3 : Vec F S1x64 .f32) : Vec F S10000x64 .f32 :=
  View.canon [⟨rF, k3_pay1 (View.ld x0 rF) (View.ld x1 rF) (View.ld x2 rD) (View.ld x3 rB)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem after3_4 (c : Dev nD) (t : Fin cfg3.N) : (dat3 V c).after 4 t = out3_4 (iblk3 V c 0 t) (iblk3 V c 1 t) (iblk3 V c 2 t) (iblk3 V c 3 t) := by dsimp only [dat3]

theorem found3_0 (c : Dev nD) (t : Fin cfg3.N) (d) : (dat3 V c).before 0 t d = iblk3 V c 0 t :=
  (dat3 V c).before_in_eq_fetched 0 rfl (fun _ => rfl) (fun _ _ _ => rfl) (fun _ => rfl) t d
theorem found3_1 (c : Dev nD) (t : Fin cfg3.N) (d) : (dat3 V c).before 1 t d = iblk3 V c 1 t :=
  (dat3 V c).before_in_eq_fetched 1 rfl (fun _ => rfl) (fun _ _ _ => rfl) (fun _ => rfl) t d
theorem found3_2 (c : Dev nD) (t : Fin cfg3.N) (d) : (dat3 V c).before 2 t d = iblk3 V c 2 t :=
  (dat3 V c).before_in_eq_fetched 2 rfl (fun _ => rfl) (fun _ _ _ => rfl) (fun _ => rfl) t d
theorem found3_3 (c : Dev nD) (t : Fin cfg3.N) (d) : (dat3 V c).before 3 t d = iblk3 V c 3 t :=
  (dat3 V c).before_in_eq_fetched 3 rfl (fun _ => rfl) (fun _ _ _ => rfl) (fun _ => rfl) t d

set_option maxHeartbeats 1000000 in
theorem body_run3 : Runs (F := F) cc3__finalize_kernel out3_4 := by
  intro c E i arg1 harg1 arg2 harg2 arg3 harg3 arg4 harg4 arg5 harg5 x0 x1 x2 x3 K
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (whole _)

theorem body_obligation3 (c : Dev nD) : BodyObligation (dat3 (F := F) V c) (defs₀ (F := F)) Variants.none () Set.univ := fun t => by
  rw [bigSep_W3, bigSep_W3]
  simp only [found3_0, found3_1, found3_2, found3_3]
  dsimp only [dat3]
  sl_whnfR [defs₀, Defs.onTc]
  iintro ⟨HΦ, Ho, ⟨%d0, H0⟩, ⟨%d1, H1⟩, ⟨%d2, H2⟩, ⟨%d3, H3⟩, ⟨%d4, H4⟩⟩
  iapply body_run3
  iframe H0 H1 H2 H3
  isplitl [H4]; · iexists _; iexact H4
  iintro ⟨H0, H1, H2, H3, H4⟩
  iframe
  iexact Ho

end Cert.Kernel.Hand

end
-- ==== Proof.RegionPoolBits.lean ====
import proofs.«414462_j27805618274378_3_alg».proof.Proof.LaunchKernel
import proofs.«414462_j27805618274378_3_alg».proof.Proof.Gen.Kernel.Skeleton
import proofs.«414462_j27805618274378_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S512x64 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

abbrev inv4 (c : Dev nD) (X : Vec F S512x64 .f32) : sProp 𝕄 :=
  iprop(owns c.tc (Memref.whole cc4_scratch0) fullShare X
    ∗ Pipeline.scopedRestBut (Ix := Unit) (Name := ℕ) (U := UR sig nD τ) (Lvl := ℕ) (Val := Elt F) spec4 c [cc4_scratch0] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay3 (acc4 V c t.val t.isLt) (iblk4 V c 4 t) (iblk4 V c 2 t) (iblk4 V c 3 t)
  Φ
    | ⟨0, _⟩ => Pipeline.ΦA spec4 c
    | ⟨n + 1, hn⟩ => inv4 c (acc4 V c n (Nat.lt_of_succ_lt_succ hn))
  q _ := fullShare
  owed _ := 0

theorem acc4_zero (c : Dev nD) (hn : 0 < cfg4.N) :
    acc4 V c 0 hn = k4_pay2 (iblk4 V c 1 ⟨0, hn⟩) (iblk4 V c 0 ⟨0, hn⟩) (k4_pay1 (F := F)) := rfl

theorem acc4_succ (c : Dev nD) (n : ℕ) (hn : n + 1 < cfg4.N) :
    acc4 V c (n + 1) hn = k4_pay2 (iblk4 V c 1 ⟨n + 1, hn⟩) (iblk4 V c 0 ⟨n + 1, hn⟩) (acc4 V c n (Nat.lt_of_succ_lt hn)) := rfl

theorem after4_5 (c : Dev nD) (t : Fin cfg4.N) :
    (dat4 V c).after 5 t = k4_pay3 (acc4 V c t.val t.isLt) (iblk4 V c 4 t) (iblk4 V c 2 t) (iblk4 V c 3 t) := by
  dsimp only [dat4]

theorem PhiA4 (c : Dev nD) : (Pipeline.ΦA spec4 c : sProp 𝕄) ⊣⊢ ∃ d, inv4 c d := by
  unfold Pipeline.ΦA; rw [scopedRest4_split]; simp only [← owns_whole, inv4]
  constructor
  · iintro ⟨⟨⟨%d, HS⟩, HR⟩, Hg⟩; iexists d; iframe
  · iintro ⟨%d, HS, HR, Hg⟩; iframe HR Hg; iexists d; iexact HS

theorem hin4 (c : Dev nD) : Pipeline.ΦA spec4 c ⊢ (dat4 (F := F) V c).Φ 0 := .rfl

theorem hout4 (c : Dev nD) : (dat4 (F := F) V c).Φ (Fin.last cfg4.N) ⊢ Pipeline.ΦA spec4 c :=
  (exists_intro (Φ := inv4 c) _).trans (PhiA4 c).2

abbrev cond4_0 (i : grid4.Coords) : Prop := (Scalar.cmpi .ne (Scalar.extui (Scalar.cmpi .eq (BitVec.ofNat 32 (i 0).val) 0#32)) 0#32) = 1#1

abbrev cond4_1 (i : grid4.Coords) : Prop := k4_cond2 i = 1#1

theorem hcond4_0 : ∀ t : Fin cfg4.N, cond4_0 (grid4.coords t) ↔ t.val = 0 := by decide +kernel

theorem excl4 : ∀ t : Fin cfg4.N, cond4_0 (grid4.coords t) → ¬cond4_1 (grid4.coords t) := by decide +kernel

theorem idleAt4_5 : ∀ t : Fin cfg4.N, ¬cond4_1 (grid4.coords t) → cfg4.idle 5 (grid4.coords t) = true ∧ (cfg4.win 5).flush t = false := by decide +kernel

theorem liveAt4_5 : ∀ t : Fin cfg4.N, cond4_1 (grid4.coords t) → cfg4.idle 5 (grid4.coords t) = false := by decide +kernel

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

theorem hz2 : (![0, 0] : Fin 2 → Nat) = fun _ => 0 := by decide

theorem read_store {κ : Kind} {sp : Space} {S : Shape} {e : EltTy} (v : View sig κ sp S e) {off : Fin S.rank → ℕ} (h : off = fun _ => 0) (inb)
    (f : v.ty.Contents (Elt F)) (w) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans (View.canon_cons_unit_zero h inb w L)

theorem run4 (c : Dev nD) (i : grid4.Coords) (arg1 harg1 arg2 harg2 arg3 harg3 arg4 harg4 arg5 harg5 arg6 harg6 arg7 harg7)
    (x0 x1 x2 x3 x4 xo xs) (h01 : cond4_0 i → ¬cond4_1 i) (E : Set ℕ) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare xo
        ∗ owns c.tc arg7 fullShare xs
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare
                (if cond4_1 i then k4_pay3 (k4_pay2 x1 x0 (if cond4_0 i then k4_pay1 (F := F) else xs)) x4 x2 x3 else xo)
            ∗ owns c.tc arg7 fullShare (k4_pay2 x1 x0 (if cond4_0 i then k4_pay1 (F := F) else xs))) -∗ K ⟨⟩))
      ⊢ wp frame (wpE (defs₀ (F := F)) Variants.none c none) E (cc4__pool_linear_kernel i arg1 harg1 arg2 harg2 arg3 harg3 arg4 harg4 arg5 harg5 arg6 harg6 arg7 harg7) K := by
  by_cases hc0 : cond4_0 i <;> by_cases hc1 : cond4_1 i
  · exact absurd hc1 (h01 hc0)
  all_goals
    simp only [cond4_0, cond4_1, hc0, hc1, eq_self, if_true, if_false, cc4__pool_linear_kernel_eq_skeleton]; unfold cc4__pool_linear_kernel_skel owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
    subst hf0 hf1 hf2 hf3 hf4 hfo hfs
    sl_exec
    sl_step
    iapply Hk
    isplitl [H0]; swap; isplitl [H1]; swap; isplitl [H2]; swap; isplitl [H3]; swap; isplitl [H4]; swap; isplitl [HO]
    all_goals (iexists _; isplitr; swap; iassumption; ipureintro; try sl_unfold_words)
    all_goals simp only [read_store arg6.view hz2, read_store arg7.view hz2, View.readCov_unit_zero (S := S512x64) _ hz2, View.readAt_eq_ld,
      View.ld_unit_zero (S := S10000x64) hz2, View.ld_unit_zero (S := S10000x1) hz2, View.ld_unit_zero (S := S512x64) hz2,
      View.ld_unit_zero (S := S64x2) hz2, View.ld_unit_zero (S := S1x2) hz2, View.ld_unit_zero (S := S512x1) hz2]

theorem Phi4_open (c : Dev nD) (t : Fin cfg4.N) :
    (dat4 V c).Φ t.castSucc ⊢ ∃ xs, ⌜k4_pay2 (iblk4 V c 1 t) (iblk4 V c 0 t) (if cond4_0 (grid4.coords t) then k4_pay1 (F := F) else xs)
      = acc4 V c t.val t.isLt⌝ ∗ inv4 c xs := by
  obtain ⟨n, hn⟩ := t
  cases n with
  | zero =>
    refine (PhiA4 c).1.trans ?_
    iintro ⟨%d, H⟩; iexists d; isplitr; · ipureintro; rw [if_pos ((hcond4_0 _).mpr rfl)]; rfl
    iexact H
  | succ n =>
    change inv4 c (acc4 V c n _) ⊢ _
    iintro H; iexists _; isplitr; · ipureintro; rw [if_neg fun h => Nat.succ_ne_zero n ((hcond4_0 _).mp h)]; rfl
    iexact H

theorem leaves4_5 (c : Dev nD) (t : Fin cfg4.N) (d) :
    owns c.tc (win4_5.stage (cfg4.slots t 5)) fullShare
        (if cond4_1 (grid4.coords t) then (dat4 V c).after 5 t else (dat4 V c).before 5 t d) ⊢ (dat4 V c).leavesExact 5 t := by
  by_cases h : cond4_1 (grid4.coords t)
  · rw [if_pos h]; unfold Dat.leavesExact; rw [liveAt4_5 t h]
  · rw [if_neg h, Dat.leavesExact_idle _ 5 t (idleAt4_5 t h).1 (idleAt4_5 t h).2]; iintro H; iexists d; iexact H

theorem body_obligation4 (c : Dev nD) : BodyObligation (dat4 (F := F) V c) (defs₀ (F := F)) Variants.none () Set.univ := fun t => by
  rw [bigSep_W4, bigSep_W4]
  show _ ⊢ wp frame (wpE (defs₀ (F := F)) Variants.none c none) Set.univ (bodyAt4 t) fun _ =>
        iprop(inv4 c (acc4 V c t.val t.isLt) ∗ (dat4 V c).owesAt () t.castSucc
          ∗ owns c.tc (win4_0.stage (cfg4.slots t 0)) fullShare (iblk4 V c 0 t)
          ∗ owns c.tc (win4_1.stage (cfg4.slots t 1)) fullShare (iblk4 V c 1 t)
          ∗ owns c.tc (win4_2.stage (cfg4.slots t 2)) fullShare (iblk4 V c 2 t)
          ∗ owns c.tc (win4_3.stage (cfg4.slots t 3)) fullShare (iblk4 V c 3 t)
          ∗ owns c.tc (win4_4.stage (cfg4.slots t 4)) fullShare (iblk4 V c 4 t)
          ∗ (dat4 V c).leavesExact 5 t)
  simp only [before4_0, before4_1, before4_2, before4_3, before4_4, inv4]
  iintro ⟨HΦ, Ho, ⟨%d0, H0⟩, ⟨%d1, H1⟩, ⟨%d2, H2⟩, ⟨%d3, H3⟩, ⟨%d4, H4⟩, ⟨%d5, H5⟩⟩
  icases (Phi4_open V c t) $$ HΦ with ⟨%xs, %hx, HS, HR⟩
  iapply (run4 c (grid4.coords t) _ _ _ _ _ _ _ _ _ _ _ _ _ _ (iblk4 V c 0 t) (iblk4 V c 1 t) (iblk4 V c 2 t) (iblk4 V c 3 t) (iblk4 V c 4 t)
    ((dat4 V c).before 5 t d5) xs (excl4 t) Set.univ _)
  iframe H0 H1 H2 H3 H4 H5 HS
  iintro ⟨H0, H1, H2, H3, H4, H5, HS⟩
  rw [hx, ← after4_5]
  iframe HS HR Ho H0 H1 H2 H3 H4
  iapply (leaves4_5 V c t d5) $$ H5

end Cert.Kernel.Hand

end
-- ==== Proof.FoldBits.lean ====
import proofs.«414462_j27805618274378_3_alg».proof.Proof.RegionScaleBits
import proofs.«414462_j27805618274378_3_alg».proof.Proof.RegionFinalBits
import proofs.«414462_j27805618274378_3_alg».proof.Proof.RegionPoolBits

set_option maxRecDepth 16384

noncomputable section

namespace Cert.Kernel.Hand

open Cert.Kernel Cert.Kernel.Gen Cert.Kernel.GenP
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b

abbrev W6 : Dev nD → Valuation τ sig (Elt F) := fun c => StableHlo.after hostOps3 (W5 m c)
abbrev V6 : (c : Dev nD) → (b : Ref sig .tc) → Buf (Elt F) ((c : Thread nD τ).loc b) := fun c b => W6 m c b

def W7 (c : Dev nD) : Valuation τ sig (Elt F) :=
  Pipeline.withArrays spec3 c (W6 m c) fun w => (dat3 (V6 m) c).arrAt w cfg3.N
abbrev V7 : (c : Dev nD) → (b : Ref sig .tc) → Buf (Elt F) ((c : Thread nD τ).loc b) := fun c b => W7 m c b

abbrev W8 : Dev nD → Valuation τ sig (Elt F) := fun c => StableHlo.after hostOps4 (W7 m c)
abbrev V8 : (c : Dev nD) → (b : Ref sig .tc) → Buf (Elt F) ((c : Thread nD τ).loc b) := fun c b => W8 m c b

def W9 (c : Dev nD) : Valuation τ sig (Elt F) :=
  Pipeline.withArrays spec4 c (W8 m c) fun w => (dat4 (V8 m) c).arrAt w cfg4.N

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb

theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb

end Cert.Kernel.Hand

end
-- ==== Proof.RunBits.lean ====
import proofs.«414462_j27805618274378_3_alg».proof.Proof.FoldBits

set_option maxRecDepth 16384

noncomputable section

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace Cert.Kernel.Hand.Run

abbrev written0 : List (Ref sig .tc) :=
  [main_v0, main_v1, main_v2, main_v3, main_cst, main_v4, main_cst_0, main_v5, main_v6, main_v7, main_cst_1, main_v8,
   main_v9, main_v10, main_v11, main_cst_2, main_v12, main_cst_3, main_v13, main_v14, main_v15, main_cst_4, main_v16,
   main_v17, main_v18, main_v19]

abbrev written1 : List (Ref sig .tc) :=
  [main_c, main_v21, main_v22, main_c_5, main_v23, main_v24, main_v25, main_v26, main_v27, main_cst_6, main_v28,
   main_v29, main_v30, main_v31]

abbrev written3 : List (Ref sig .tc) :=
  [main_c_7, main_v34, main_v35, main_c_8, main_v36, main_v37, main_v38, main_v39, main_v40, main_cst_9, main_v41,
   main_v42, main_v43, main_v44]

abbrev written4 : List (Ref sig .tc) := [main_v46]

-- Each operation of a host stretch writes only its own result buffer.
theorem writes :
    ((hostOps0 : List (HloOp τ sig (Elt F))).Forall fun op => op.writes ⊆ (written0.map (Proc.devRef (τ := τ) .tc)).toFinset)
    ∧ ((hostOps1 : List (HloOp τ sig (Elt F))).Forall fun op => op.writes ⊆ (written1.map (Proc.devRef (τ := τ) .tc)).toFinset)
    ∧ ((hostOps3 : List (HloOp τ sig (Elt F))).Forall fun op => op.writes ⊆ (written3.map (Proc.devRef (τ := τ) .tc)).toFinset)
    ∧ ((hostOps4 : List (HloOp τ sig (Elt F))).Forall fun op => op.writes ⊆ (written4.map (Proc.devRef (τ := τ) .tc)).toFinset) := by
  refine ⟨?_, ?_, ?_, ?_⟩ <;>
  · simp only [hostOps0, hostOps1, hostOps3, hostOps4, List.Forall, StableHlo.nullary_writes, StableHlo.unary_writes,
      StableHlo.binary_writes, StableHlo.ternary_writes, StableHlo.reshape_writes, Finset.singleton_subset_iff, List.mem_toFinset]
    repeat' apply And.intro
    all_goals exact List.mem_map_of_mem (by decide)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

abbrev noTable : (p : Fin 5) → (pcfgs (F := F) p).Adm := fun p => (cfgs p).toPCfg_adm

abbrev cfgOf (p : Fin 5) := Pipeline.pin (pcfgs (F := F)) noTable p

def datOf : (p : Fin 5) → (c : Dev nD) → Dat τ (Elt F) Unit ℕ (UR sig nD τ) ℕ (cfgOf (F := F) p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c

section Region

variable (p : Fin 5) (Win Wout : Dev nD → Valuation τ sig (Elt F))
  (hA : ∀ c w, (datOf m p c).A w = Win c (Proc.devRef .tc (Pipeline.arrRef (cfgOf (F := F) p).spec w)))
  (hF : ∀ c w, Wout c (Proc.devRef .tc (Pipeline.arrRef (cfgOf (F := F) p).spec w)) = (datOf m p c).arrAt w (cfgOf (F := F) p).N)
  (hrest : ∀ c (b : Ref sig .tc), (∀ w, Pipeline.arrRef (cfgOf (F := F) p).spec w ≠ b) →
    Wout c (Proc.devRef .tc b) = Win c (Proc.devRef .tc b))

-- A region changes no buffer other than the arrays of its output windows.
include hA hF hrest in
theorem kept (c : Dev nD) (r : Ref sig .tc)
    (h : ∀ w, ((cfgOf (F := F) p).win w).isOut = true → Pipeline.arrRef (cfgOf (F := F) p).spec w ≠ r) :
    Wout c (Proc.devRef .tc r) = Win c (Proc.devRef .tc r) := by
  by_cases hr : ∃ w, Pipeline.arrRef (cfgOf (F := F) p).spec w = r
  · obtain ⟨w, rfl⟩ := hr
    have hin : ((cfgOf (F := F) p).win w).isOut = false := by
      cases hw : ((cfgOf (F := F) p).win w).isOut
      · rfl
      · exact absurd rfl (h w hw)
    exact (hF c w).trans (((datOf m p c).arrAt_in w hin _).trans (hA c w))
  · exact hrest c r fun w e => hr ⟨w, e⟩

abbrev noLevel : GSem nD τ sig → Finset Unit := fun _ => ∅
abbrev levelZero : GSem nD τ sig → Unit → ℕ := fun _ _ => 0

abbrev beside (c : Dev nD) : sProp 𝕄 :=
  iprop((∃ r, prngReg c r) ∗ ∃ W, owes (c : Thread nD τ) (0 : CellTallies nD τ sig Unit) W)

abbrev heldAt (W : Dev nD → Valuation τ sig (Elt F)) (c : Dev nD) : sProp 𝕄 :=
  iprop(StableHlo.held (c : Thread nD τ) (Pipeline.ucRefs τ sig) (W c) ∗ beside c)

-- A region as a segment of @main: entered with the buffers at `Win`, left with them at `Wout`.
set_option backward.isDefEq.respectTransparency.types false in
def regionOf (hw : Pipeline.WinFacts (cfgOf (F := F) p).spec) (harr : ∀ w, ((cfgOf (F := F) p).spec w).arr.IsWhole)
    (hpos : ∀ w : Fin (cfgOf (F := F) p).W, 0 < ((cfgOf (F := F) p).spec w).block.numel)
    (hstage : ∀ (w : Fin (cfgOf (F := F) p).W) (s : Fin ((cfgOf (F := F) p).spec w).nbuf), (((cfgOf (F := F) p).spec w).stage s).IsWhole)
    (hbody : ∀ c, Pipeline.BodyObligationLoose (datOf m p c) (defs₀ (F := F)) Variants.none () Set.univ)
    (hshare : ∀ c w, (datOf m p c).share w = fullShare) (howed : ∀ c t, (datOf m p c).owed t = 0)
    (hrec : ∀ c, (datOf m p c).recorded 0 = Set.univ)
    (hΦin : ∀ c, (Pipeline.ΦA (cfgOf (F := F) p).spec c : sProp 𝕄) ⊢ (datOf m p c).Φ 0)
    (hΦout : ∀ c, (datOf m p c).Φ (Fin.last (cfgOf (F := F) p).N) ⊢ (Pipeline.ΦA (cfgOf (F := F) p).spec c : sProp 𝕄)) :
    Pipeline.RegionSeg (pcfgs (F := F)) noTable (datOf m) () defs₀ Variants.none noLevel levelZero p where
  win := hw.to₀
  block_pos := hpos
  stage_whole := hstage
  K := PEmpty
  osem k := k.elim
  ho := Pipeline.OwnSemFacts.none _
  hbody := hbody
  hwaits := Pipeline.hwaits_of_owed_zero _ _ _ _ noLevel levelZero p howed
  pre := heldAt Win
  post := heldAt Wout
  X c := iprop(∃ r, prngReg c r)
  Y c := iprop(∃ r, prngReg c r)
  Z c := Pipeline.unscopedRest (Ix := Unit) (Name := ℕ) (U := UR sig nD τ) (Lvl := ℕ) (cfgOf (F := F) p).spec c fun b => Win c b
  hentry c := by
    rw [Pipeline.ownSems0_none]
    have hsplit := Pipeline.arrays_of_unscopedBufs (p := p) (pcfgs (F := F)) noTable (datOf m) hw harr c (hshare c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) noTable (Ix := Unit) (Name := ℕ) (U := UR sig nD τ) (Lvl := ℕ)
      hw harr c (datOf m) (hshare c) (fun b => Win c b) (fun b => Wout c b) ((datOf m p c).arrAt · (cfgOf (F := F) p).N)
      (fun w => (hF c w).symm) fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Region

-- A buffer that no stretch writes and no region outputs holds at the return what it held at launch.
theorem W9_as_launched (c : Dev nD) (r : Ref sig .tc)
    (h : r ∉ written0 ∧ r ∉ written1 ∧ r ∉ written3 ∧ r ∉ written4
      ∧ (∀ w, (cfg0.win w).isOut = true → Pipeline.arrRef spec0 w ≠ r) ∧ (∀ w, (cfg1.win w).isOut = true → Pipeline.arrRef spec1 w ≠ r)
      ∧ (∀ w, (cfg2.win w).isOut = true → Pipeline.arrRef spec2 w ≠ r) ∧ (∀ w, (cfg3.win w).isOut = true → Pipeline.arrRef spec3 w ≠ r)
      ∧ (∀ w, (cfg4.win w).isOut = true → Pipeline.arrRef spec4 w ≠ r)) :
    W9 m c (Proc.devRef .tc r) = m ((c : Thread nD τ).loc r) :=
  calc W9 m c (Proc.devRef .tc r)
    _ = W8 m c (Proc.devRef .tc r) := kept m 4 (W8 m) (W9 m) (fun _ _ => rfl) (W9_arr m) (W9_of_ne m) c r h.2.2.2.2.2.2.2.2
    _ = W7 m c (Proc.devRef .tc r) := StableHlo.after_of_writes_sub hostOps4 _ writes.2.2.2 h.2.2.2.1
    _ = W6 m c (Proc.devRef .tc r) := kept m 3 (W6 m) (W7 m) (fun _ _ => rfl) (W7_arr m) (W7_of_ne m) c r h.2.2.2.2.2.2.2.1
    _ = W5 m c (Proc.devRef .tc r) := StableHlo.after_of_writes_sub hostOps3 _ writes.2.2.1 h.2.2.1
    _ = W4 m c (Proc.devRef .tc r) := kept m 2 (W4 m) (W5 m) (fun _ _ => rfl) (W5_arr m) (W5_of_ne m) c r h.2.2.2.2.2.2.1
    _ = W3 m c (Proc.devRef .tc r) := kept m 1 (W3 m) (W4 m) (fun _ _ => rfl) (W4_arr m) (W4_of_ne m) c r h.2.2.2.2.2.1
    _ = W2 m c (Proc.devRef .tc r) := StableHlo.after_of_writes_sub hostOps1 _ writes.2.1 h.2.1
    _ = W1 m c (Proc.devRef .tc r) := kept m 0 (W1 m) (W2 m) (fun _ _ => rfl) (W2_arr m) (W2_of_ne m) c r h.2.2.2.2.1
    _ = W0 m c (Proc.devRef .tc r) := StableHlo.after_of_writes_sub hostOps0 _ writes.1 h.1
    _ = m ((c : Thread nD τ).loc r) := rfl

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevel levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

abbrev atReturn (c : Dev nD) : sProp 𝕄 :=
  iprop(StableHlo.held (c : Thread nD τ) (Pipeline.ucRefs τ sig) (W9 m c) ∗ ∃ r, prngReg c r)

set_option backward.isDefEq.respectTransparency.types false in
abbrev segments : List (Pipeline.Seg (pcfgs (F := F)) noTable (datOf m) () defs₀ Variants.none noLevel levelZero) :=
  [ .host (stretch hostOps0 hostOps0_sub hostOps0_fresh (W0 m)),
    .region (regionOf m 0 (W1 m) (W2 m) (fun _ _ => rfl) (W2_arr m) (W2_of_ne m) launch0.win launch0.arr_whole launch0.block_pos
      launch0.stage_whole (fun c => (body_obligation0 (V1 m) c).loose) (fun c => (datOf m 0 c).share_full fun _ => rfl)
      (fun _ _ => rfl) (fun _ => rfl) (fun _ => .rfl) fun _ => .rfl),
    .host (stretch hostOps1 hostOps1_sub hostOps1_fresh (W2 m)),
    .region (regionOf m 1 (W3 m) (W4 m) (fun _ _ => rfl) (W4_arr m) (W4_of_ne m) launch1.win launch1.arr_whole launch1.block_pos
      launch1.stage_whole (fun c => (body_obligation1 (V3 m) c).loose) (fun c => (datOf m 1 c).share_full fun _ => rfl)
      (fun _ _ => rfl) (fun _ => rfl) (fun _ => .rfl) fun _ => .rfl),
    .region (regionOf m 2 (W4 m) (W5 m) (fun _ _ => rfl) (W5_arr m) (W5_of_ne m) launch2.win launch2.arr_whole launch2.block_pos
      launch2.stage_whole (fun c => (body_obligation2 (V4 m) c).loose) (fun c => (datOf m 2 c).share_full fun _ => rfl)
      (fun _ _ => rfl) (fun _ => rfl) (fun _ => .rfl) fun _ => .rfl),
    .host (stretch hostOps3 hostOps3_sub hostOps3_fresh (W5 m)),
    .region (regionOf m 3 (W6 m) (W7 m) (fun _ _ => rfl) (W7_arr m) (W7_of_ne m) launch3.win launch3.arr_whole launch3.block_pos
      launch3.stage_whole (fun c => (body_obligation3 (V6 m) c).loose) (fun c => (datOf m 3 c).share_full fun _ => rfl)
      (fun _ _ => rfl) (fun _ => rfl) (fun _ => .rfl) fun _ => .rfl),
    .host (stretch hostOps4 hostOps4_sub hostOps4_fresh (W7 m)),
    .region (regionOf m 4 (W8 m) (W9 m) (fun _ _ => rfl) (W9_arr m) (W9_of_ne m) launch4.win launch4.arr_whole launch4.block_pos
      launch4.stage_whole (fun c => (body_obligation4 (V8 m) c).loose) (fun c => (datOf m 4 c).share_full fun _ => rfl)
      (fun _ _ => rfl) (fun _ => rfl) (hin4 (V8 m)) (hout4 (V8 m))) ]

theorem main_is_segments (c : Dev nD) : main (F := F) c = Pipeline.Seg.run (segments m) :=
  (main_chain c).trans (by chain_rfl)

end Cert.Kernel.Hand.Run

namespace Cert.Kernel.Hand

open Cert.Kernel.Hand.Run

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every weakly fair execution of @main terminates, and the buffers then hold `W9`.
set_option backward.isDefEq.respectTransparency.types false in
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) noTable (datOf m) () cellOf_inj emb₁ defs₀ Variants.none noLevel levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach noLevel levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

-- The result array ends at `W9`'s contents there, and the nine arguments as launched.
theorem result_run (ρ : Dev nD → PrngReg) : θ_run defs (onTc (τ := τ) (main (F := F))) ⟨m, fun _ => 0, ρ⟩ (fun r => ∀ c : Dev nD,
      r.2.mem ((c.tc : Thread nD τ).loc main_v47) = W9 m c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨h c _ (mem_uc main_v47 (by decide)),
     (h c _ (mem_uc main_arg0 (by decide))).trans (W9_as_launched m c _ (by decide)),
     (h c _ (mem_uc main_arg1 (by decide))).trans (W9_as_launched m c _ (by decide)),
     (h c _ (mem_uc main_arg2 (by decide))).trans (W9_as_launched m c _ (by decide)),
     (h c _ (mem_uc main_arg3 (by decide))).trans (W9_as_launched m c _ (by decide)),
     (h c _ (mem_uc main_arg4 (by decide))).trans (W9_as_launched m c _ (by decide)),
     (h c _ (mem_uc main_arg5 (by decide))).trans (W9_as_launched m c _ (by decide)),
     (h c _ (mem_uc main_arg6 (by decide))).trans (W9_as_launched m c _ (by decide)),
     (h c _ (mem_uc main_arg7 (by decide))).trans (W9_as_launched m c _ (by decide)),
     (h c _ (mem_uc main_arg8 (by decide))).trans (W9_as_launched m c _ (by decide))⟩) (run_main m ρ)

end Cert.Kernel.Hand

end
-- ==== Proof.Spec.lean ====
import Idealize.ShloMosaic.PureOps.Ideal
import Idealize.ShloMosaic.Lib.ValueIdx

noncomputable section

open scoped BigOperators

namespace GcnSpec

open Idealize.ShloMosaic

abbrev Mat (m n : ℕ) : Type := Fin m → Fin n → EReal
abbrev Col (n : ℕ) : Type := Fin n → EReal
abbrev Ids (n : ℕ) : Type := Fin n → BitVec 32

def wrapId (n : ℕ) (v : BitVec 32) : BitVec 32 := if v.slt 0#32 then v + BitVec.ofNat 32 n else v

def readRow (n : ℕ) (hn : 0 < n) (v : BitVec 32) : Fin n := ⟨min (wrapId n v).toInt.toNat (n - 1), by omega⟩

abbrev lands {n : ℕ} (v : BitVec 32) (i : Fin n) : Prop := v.toInt = (i.val : ℤ)

def withLoops {E N : ℕ} (ids : Ids E) : Ids (E + N) :=
  fun e => if h : e.val < E then ids ⟨e.val, h⟩ else BitVec.ofNat 32 (e.val - E)

def prod {m k n : ℕ} (A : Mat m k) (B : Mat k n) : Mat m n := fun r j => ∑ c : Fin k, A r c * B c j

section Layer

variable {E N K H : ℕ} (hN : 0 < N) (one zero : EReal)

def kDeg (dst : Ids E) : Col N := fun i => (zero + ∑ e ∈ Finset.univ.filter (fun e : Fin E => lands (dst e) i), one) + one

def kScaled (X : Mat N K) (W : Mat K H) (d : Col N) : Mat N H := fun r j => (∑ c : Fin K, X r c * W c j) * d r

def kScat (src dst : Ids E) (Y : Mat N H) : Mat N H :=
  fun i j => zero + ∑ e ∈ Finset.univ.filter (fun e : Fin E => lands (dst e) i), Y (readRow N hN (src e)) j

def kFinal (S Y : Mat N H) (d : Col N) (b : Col H) : Mat N H := fun r j => max (d r * (S r j + Y r j) + b j) zero

def kLayer (src dst : Ids E) (X : Mat N K) (W : Mat K H) (b : Col H) : Mat N H :=
  let d : Col N := fun i => Ideal.rsqrt (kDeg one zero dst i)
  kFinal zero (kScat hN zero src dst (kScaled X W d)) (kScaled X W d) d b

def rDeg (dst' : Ids (E + N)) : Col N := fun i => zero + ∑ e ∈ Finset.univ.filter (fun e : Fin (E + N) => lands (dst' e) i), one

def rDinv (deg : Col N) : Col N := fun i => if zero < deg i then Ideal.rsqrt (deg i) else zero

def rLayer (src' dst' : Ids (E + N)) (X : Mat N K) (W : Mat K H) (b : Col H) : Mat N H :=
  let d : Col N := rDinv zero (rDeg one zero dst')
  fun i j => max ((zero + ∑ e ∈ Finset.univ.filter (fun e : Fin (E + N) => lands (dst' e) i),
      (∑ c : Fin K, X (readRow N hN (src' e)) c * W c j) * (d (readRow N hN (src' e)) * d (readRow N hN (dst' e)))) + b j) zero

end Layer

section Pool

variable {N H G O : ℕ} (one zero : EReal)

def memberCount (batch : Ids N) : Col G :=
  fun g => max (zero + ∑ n ∈ Finset.univ.filter (fun n : Fin N => lands (batch n) g), one) one

def kPoolSum (batch : Ids N) (X : Mat N H) : Mat G H :=
  fun g k => ∑ n : Fin N, (if batch n = BitVec.ofNat 32 g.val then one else zero) * X n k

def rPoolSum (batch : Ids N) (X : Mat N H) : Mat G H :=
  fun g k => zero + ∑ n ∈ Finset.univ.filter (fun n : Fin N => lands (batch n) g), X n k

def head (S : Mat G H) (cnt : Col G) (Wl : Mat H O) (bl : Col O) : Mat G O :=
  fun g o => (∑ k : Fin H, Ideal.div (S g k) (cnt g) * Wl k o) + bl o

end Pool

section Net

variable {E N K H G O : ℕ} (hN : 0 < N) (one zero : EReal)

def kNet (src dst : Ids E) (batch : Ids N) (X : Mat N K) (W1 : Mat K H) (b1 : Col H) (W2 : Mat H H) (b2 : Col H)
    (Wl : Mat H O) (bl : Col O) : Mat G O :=
  let h1 := kLayer hN one zero src dst X W1 b1
  let h2 := kLayer hN one zero src dst h1 W2 b2
  head (kPoolSum one zero batch h2) (memberCount one zero batch) Wl bl

def rNet (src dst : Ids E) (batch : Ids N) (X : Mat N K) (W1 : Mat K H) (b1 : Col H) (W2 : Mat H H) (b2 : Col H)
    (Wl : Mat H O) (bl : Col O) : Mat G O :=
  let h1 := rLayer hN one zero (withLoops (N := N) src) (withLoops (N := N) dst) X W1 b1
  let h2 := rLayer hN one zero (withLoops (N := N) src) (withLoops (N := N) dst) h1 W2 b2
  head (rPoolSum zero batch h2) (memberCount one zero batch) Wl bl

end Net

end GcnSpec

end
-- ==== Proof.Consts.lean ====
import Idealize.ShloMosaic.PureOps.Ideal.Laws

noncomputable section

namespace GcnSpec

open Idealize.ShloMosaic

abbrev zeroW : EReal := Ideal.ofBits .f32 0x00000000#32

abbrev oneW : EReal := Ideal.ofBits .f32 0x3F800000#32

theorem zeroW_eq : zeroW = 0 := Ideal.ofBits_zero_f32

theorem oneW_eq : oneW = ((1 : ℝ) : EReal) := by
  simp [Ideal.ofBits, Ideal.ieee]
  rw [← EReal.coe_mul]
  norm_num

end GcnSpec

end
-- ==== Proof.Views.lean ====
import Idealize.ShloMosaic.Lib.ValueIdx

namespace GcnSpec

open Idealize.ShloMosaic Idealize.ShloMosaic.ValueIdx

def mat {α : Type} {m n : ℕ} (a : (⟨2, ![m, n]⟩ : Shape).Idx → α) : Fin m → Fin n → α := fun r j => a (ix2 r j)

def vec {α : Type} {n : ℕ} (a : (⟨1, ![n]⟩ : Shape).Idx → α) : Fin n → α := fun j => a (ix1 j)

def colOf {α : Type} {m n : ℕ} (a : (⟨2, ![m, n]⟩ : Shape).Idx → α) (k : Fin n) : Fin m → α := fun r => a (ix2 r k)

def rowOf {α : Type} {m n : ℕ} (a : (⟨2, ![m, n]⟩ : Shape).Idx → α) (r : Fin m) : Fin n → α := fun j => a (ix2 r j)

@[simp] theorem mat_apply {α : Type} {m n : ℕ} (a : (⟨2, ![m, n]⟩ : Shape).Idx → α) (r : Fin m) (j : Fin n) : mat a r j = a (ix2 r j) := rfl
@[simp] theorem vec_apply {α : Type} {n : ℕ} (a : (⟨1, ![n]⟩ : Shape).Idx → α) (j : Fin n) : vec a j = a (ix1 j) := rfl
@[simp] theorem colOf_apply {α : Type} {m n : ℕ} (a : (⟨2, ![m, n]⟩ : Shape).Idx → α) (k : Fin n) (r : Fin m) : colOf a k r = a (ix2 r k) := rfl
@[simp] theorem rowOf_apply {α : Type} {m n : ℕ} (a : (⟨2, ![m, n]⟩ : Shape).Idx → α) (r : Fin m) (j : Fin n) : rowOf a r j = a (ix2 r j) := rfl

end GcnSpec
-- ==== Proof.LibRowLayers.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

namespace RowLayers

open Idealize.ShloMosaic Idealize.ShloMosaic.ValueIdx

variable {m k : ℕ}

theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    rw [Shape.rowMajor_val_two, Shape.rowMajor_val_one]
    show r.val = r.val * 1 + u.val
    omega)

theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) :=
  broadcastTo_apply v hbc (ix2 r j) (ix2 r (0 : Fin 1)) fun
    | ⟨0, _⟩ => by show r.val = if m = 1 then 0 else r.val; split <;> omega
    | ⟨1, _⟩ => rfl

theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) :=
  broadcastInDim_apply ![0] h v (ix2 r u) (ix1 r) fun
    | ⟨0, _⟩ => by show r.val = if m = 1 then 0 else r.val; split <;> omega

end RowLayers
-- ==== Proof.ValueRegions.lean ====
import proofs.«414462_j27805618274378_3_alg».proof.Proof.RegionScale
import proofs.«414462_j27805618274378_3_alg».proof.Proof.RegionFinal
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibRowLayers
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe
open Idealize.ShloMosaic.Pipeline (Dat Cfg Window)
open Idealize.ShloMosaic.ValueIdx

variable (V : (c : Dev nD) → (b : Ref sig .tc) → Buf (Elt Ideal) ((c : Thread nD τ).loc b))

namespace ValueScale

theorem zeroOffsets : (![0, 0] : Fin 2 → Nat) = fun _ => 0 := funext fun a => by fin_cases a <;> rfl

-- A product into the zero matrix is the sum over the contracted coordinate; a column spread along the rows is read at its row.
theorem scaled_apply {k : Nat} (x : Vec Ideal ⟨2, ![10000, k]⟩ .f32) (w : Vec Ideal ⟨2, ![k, 64]⟩ .f32) (d : Vec Ideal S10000x1 .f32)
    (hb : S10000x1.Broadcasts S10000x64) (p : Fin 10000) (q : Fin 64) :
    matmul (F := Ideal) (DotDims.plain 10000 k 64) none (truncf (F := Ideal) .bf16 x bitsLt_bf16_f32) (truncf (F := Ideal) .bf16 w bitsLt_bf16_f32)
        (constant (F := Ideal) S10000x64 .f32 0x00000000#32) (ix2 p q) * broadcastTo S10000x64 d hb (ix2 p q)
      = (∑ c : Fin k, x (ix2 p c) * w (ix2 c q)) * d (ix2 p (0 : Fin 1)) := by
  rw [matmul_zero_eq_dotGeneral]
  exact congrArg₂ (· * ·) (StackMember.dotGeneral_plain_apply none _ _ p q) (RowLayers.broadcastColumn_apply hb d p q)

def whole {k : Nat} (X : (⟨2, ![50000, k]⟩ : Shape).Idx → EReal) (W : (⟨2, ![k, 64]⟩ : Shape).Idx → EReal) (D : S50000x1.Idx → EReal) :
    S50000x64.Idx → EReal := fun i => GcnSpec.kScaled (GcnSpec.mat X) (GcnSpec.mat W) (fun r => D (ix2 r 0)) (i 0) (i 1)

-- An index lies in the row block numbered by its row's quotient.
theorem rowBlock_mem (I : Fin 2 → Nat) (i : S50000x64.Idx) (h0 : I 0 = (i 0).val / 10000) (h1 : I 1 = 0) (a : Fin 2) :
    I a * S10000x64.size a ≤ (i a).val ∧ (i a).val < I a * S10000x64.size a + S10000x64.size a := by
  have hi1 := idx2_lt1 i
  match a with
  | ⟨0, _⟩ => show I 0 * 10000 ≤ (i 0).val ∧ (i 0).val < I 0 * 10000 + 10000; omega
  | ⟨1, _⟩ => show I 1 * 64 ≤ (i 1).val ∧ (i 1).val < I 1 * 64 + 64; omega

theorem blockIndex0 : ∀ t : Fin cfg0.N, win0_3.index t (0 : Fin 2) = t.val ∧ win0_3.index t (1 : Fin 2) = 0 :=
  (by decide +kernel : ∀ t : Fin grid0.N, _)

theorem wrote0 (c : Dev nD) (t : Fin cfg0.N) :
    (dat0 V c).flushed 3 t = ((cfg0.win 3).blk t).view.read (Elt Ideal) (whole (V c main_arg0) (V c main_arg3) (V c main_v11)) := by
  show (cfg0.win 3).cut (grid0.coords t) ((dat0 V c).after 3 t) = _
  rw [after0_3]
  unfold out0_3
  rw [View.canon_unit_zero zeroOffsets]
  simp only [View.ld_unit_zero (S := S10000x128) zeroOffsets, View.ld_unit_zero (S := S128x64) zeroOffsets, View.ld_unit_zero (S := S10000x1) zeroOffsets]
  funext y
  obtain ⟨p, q, rfl⟩ : ∃ (p : Fin 10000) (q : Fin 64), y = ix2 p q := ⟨y 0, y 1, eq_ix2 y⟩
  unfold k0_pay1
  simp only [shapeCast_self]
  refine (scaled_apply _ _ _ _ p q).trans ?_
  refine congrArg₂ (· * ·) (Finset.sum_congr rfl fun cc _ => congrArg₂ (· * ·) ?_ ?_) ?_
  · exact congrArg (V c main_arg0 : S50000x128.Idx → EReal) (Shape.idx_ext₂ rfl (by show 0 * 128 + 1 * cc.val = cc.val; omega))
  · exact congrArg (V c main_arg3 : S128x64.Idx → EReal) (Shape.idx_ext₂ (by show 0 * 128 + 1 * cc.val = cc.val; omega) rfl)
  · exact congrArg (V c main_v11 : S50000x1.Idx → EReal) (Shape.idx_ext₂ rfl rfl)

theorem covered0 (i : S50000x64.Idx) :
    ∃ t : Fin cfg0.N, (cfg0.win 3).flush t = true ∧ i ∈ ((cfg0.win 3).blk t).view.set := by
  have hi0 : (i 0).val / 10000 < cfg0.N := by have := idx2_lt0 i; rw [show cfg0.N = 5 from N_0]; omega
  obtain ⟨e6, e7⟩ := blockIndex0 ⟨_, hi0⟩
  refine ⟨⟨_, hi0⟩, flush0_3 _, ?_⟩
  show i ∈ ((View.whole main_v20).slice (win0_3.rect ⟨_, hi0⟩)).set
  rw [View.set_slice_whole, Rect.mem_set_unit]
  exact rowBlock_mem _ i e6 e7

theorem blockIndex2 : ∀ t : Fin cfg2.N, win2_3.index t (0 : Fin 2) = t.val ∧ win2_3.index t (1 : Fin 2) = 0 :=
  (by decide +kernel : ∀ t : Fin grid2.N, _)

theorem wrote2 (c : Dev nD) (t : Fin cfg2.N) :
    (dat2 V c).flushed 3 t = ((cfg2.win 3).blk t).view.read (Elt Ideal) (whole (V c main_v32) (V c main_arg5) (V c main_v11)) := by
  show (cfg2.win 3).cut (grid2.coords t) ((dat2 V c).after 3 t) = _
  rw [after2_3]
  unfold out2_3
  rw [View.canon_unit_zero zeroOffsets]
  simp only [View.ld_unit_zero (S := S10000x64) zeroOffsets, View.ld_unit_zero (S := S64x64) zeroOffsets, View.ld_unit_zero (S := S10000x1) zeroOffsets]
  funext y
  obtain ⟨p, q, rfl⟩ : ∃ (p : Fin 10000) (q : Fin 64), y = ix2 p q := ⟨y 0, y 1, eq_ix2 y⟩
  unfold k2_pay1
  simp only [shapeCast_self]
  refine (scaled_apply _ _ _ _ p q).trans ?_
  refine congrArg₂ (· * ·) (Finset.sum_congr rfl fun cc _ => congrArg₂ (· * ·) ?_ ?_) ?_
  · exact congrArg (V c main_v32 : S50000x64.Idx → EReal) (Shape.idx_ext₂ rfl (by show 0 * 64 + 1 * cc.val = cc.val; omega))
  · exact congrArg (V c main_arg5 : S64x64.Idx → EReal) (Shape.idx_ext₂ (by show 0 * 64 + 1 * cc.val = cc.val; omega) rfl)
  · exact congrArg (V c main_v11 : S50000x1.Idx → EReal) (Shape.idx_ext₂ rfl rfl)

theorem covered2 (i : S50000x64.Idx) :
    ∃ t : Fin cfg2.N, (cfg2.win 3).flush t = true ∧ i ∈ ((cfg2.win 3).blk t).view.set := by
  have hi0 : (i 0).val / 10000 < cfg2.N := by have := idx2_lt0 i; rw [show cfg2.N = 5 from N_2]; omega
  obtain ⟨e6, e7⟩ := blockIndex2 ⟨_, hi0⟩
  refine ⟨⟨_, hi0⟩, flush2_3 _, ?_⟩
  show i ∈ ((View.whole main_v33).slice (win2_3.rect ⟨_, hi0⟩)).set
  rw [View.set_slice_whole, Rect.mem_set_unit]
  exact rowBlock_mem _ i e6 e7

end ValueScale

open ValueScale

local notation "⟦" a "⟧" => GcnSpec.mat a

theorem arr0 (c : Dev nD) (r : Fin 50000) (j : Fin 64) :
    ((dat0 V c).arrAt 3 cfg0.N : S50000x64.Idx → EReal) (ix2 r j)
      = GcnSpec.kScaled ⟦(V c main_arg0 : S50000x128.Idx → EReal)⟧ ⟦(V c main_arg3 : S128x64.Idx → EReal)⟧
          (fun r => (V c main_v11 : S50000x1.Idx → EReal) (ix2 r 0)) r j :=
  congrFun ((dat0 V c).arrAt_eq_of_cover 3 _ (fun t _ => wrote0 V c t) covered0) (ix2 r j)

theorem arr2 (c : Dev nD) (r : Fin 50000) (j : Fin 64) :
    ((dat2 V c).arrAt 3 cfg2.N : S50000x64.Idx → EReal) (ix2 r j)
      = GcnSpec.kScaled ⟦(V c main_v32 : S50000x64.Idx → EReal)⟧ ⟦(V c main_arg5 : S64x64.Idx → EReal)⟧
          (fun r => (V c main_v11 : S50000x1.Idx → EReal) (ix2 r 0)) r j :=
  congrFun ((dat2 V c).arrAt_eq_of_cover 3 _ (fun t _ => wrote2 V c t) covered2) (ix2 r j)

end Cert.KernelIdeal.Hand

end
-- ==== Proof.ValueFinal.lean ====
import proofs.«414462_j27805618274378_3_alg».proof.Proof.RegionFinal
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibRowLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.ValueFinal

open Cert.KernelIdeal Cert.KernelIdeal.Gen Cert.KernelIdeal.GenP
open Idealize.ShloMosaic Idealize.ShloMosaic.TcCoe
open Idealize.SL Idealize.SL.Sem
open Idealize.ShloMosaic.Pipeline (Dat)
open Idealize.ShloMosaic.ValueIdx

theorem finalOff : (![0, 0] : Fin 2 → Nat) = fun _ => 0 := funext fun a => by fin_cases a <;> rfl

def finalWhole (S Y : S50000x64.Idx → EReal) (D : S50000x1.Idx → EReal) (B : S1x64.Idx → EReal) :
    S50000x64.Idx → EReal :=
  fun i => GcnSpec.kFinal GcnSpec.zeroW (GcnSpec.mat S) (GcnSpec.mat Y)
    (fun r : Fin 50000 => D (ix2 r (0 : Fin 1))) (fun j : Fin 64 => B (ix2 (0 : Fin 1) j)) (i 0) (i 1)

-- A column spread along the rows is read at its row, a row spread down the columns at its column.
theorem final_apply (s y : Vec Ideal S10000x64 .f32) (d : Vec Ideal S10000x1 .f32) (b : Vec Ideal S1x64 .f32)
    (hd : S10000x1.Broadcasts S10000x64) (hb : S1x64.Broadcasts S10000x64) (p : Fin 10000) (q : Fin 64) :
    max (broadcastTo S10000x64 d hd (ix2 p q) * (s (ix2 p q) + y (ix2 p q)) + broadcastTo S10000x64 b hb (ix2 p q)) GcnSpec.zeroW
      = max (d (ix2 p (0 : Fin 1)) * (s (ix2 p q) + y (ix2 p q)) + b (ix2 (0 : Fin 1) q)) GcnSpec.zeroW := by
  rw [RowLayers.broadcastColumn_apply hd _ p q, broadcastTo_1b_ab_apply _ hb p q]

-- An index lies in the row block numbered by its row's quotient.
theorem rowBlock_mem (I : Fin 2 → Nat) (i : S50000x64.Idx) (h0 : I 0 = (i 0).val / 10000) (h1 : I 1 = 0) (a : Fin 2) :
    I a * S10000x64.size a ≤ (i a).val ∧ (i a).val < I a * S10000x64.size a + S10000x64.size a := by
  have hi1 := idx2_lt1 i
  match a with
  | ⟨0, _⟩ => show I 0 * 10000 ≤ (i 0).val ∧ (i 0).val < I 0 * 10000 + 10000; omega
  | ⟨1, _⟩ => show I 1 * 64 ≤ (i 1).val ∧ (i 1).val < I 1 * 64 + 64; omega

variable (V : (c : Dev nD) → (b : Ref sig .tc) → Buf (Elt Ideal) ((c : Thread nD τ).loc b))

theorem final1_idx : ∀ t : Fin cfg1.N, win1_4.index t (0 : Fin 2) = t.val ∧ win1_4.index t (1 : Fin 2) = 0 :=
  (by decide +kernel : ∀ t : Fin grid1.N, _)

theorem final1_flushed (c : Dev nD) (t : Fin cfg1.N) :
    (dat1 V c).flushed 4 t
      = ((cfg1.win 4).blk t).view.read (Elt Ideal)
          (finalWhole (V c main_v30) (V c main_v20) (V c main_v11) (V c main_v31)) := by
  show (cfg1.win 4).cut (grid1.coords t) ((dat1 V c).after 4 t) = _
  rw [after1_4]
  unfold out1_4
  rw [View.canon_unit_zero finalOff]
  simp only [View.ld_unit_zero (S := S10000x64) finalOff, View.ld_unit_zero (S := S10000x1) finalOff,
    View.ld_unit_zero (S := S1x64) finalOff]
  funext y
  obtain ⟨p, q, rfl⟩ : ∃ (p : Fin 10000) (q : Fin 64), y = ix2 p q := ⟨y 0, y 1, eq_ix2 y⟩
  unfold k1_pay1
  simp only [shapeCast_self]
  refine (final_apply _ _ _ _ _ _ p q).trans ?_
  refine congrArg₂ max (congrArg₂ (· + ·) (congrArg₂ (· * ·) ?_ (congrArg₂ (· + ·) ?_ ?_)) ?_) rfl
  · exact congrArg (V c main_v11 : S50000x1.Idx → EReal) (Shape.idx_ext₂ rfl rfl)
  · exact congrArg (V c main_v30 : S50000x64.Idx → EReal) (Shape.idx_ext₂ rfl rfl)
  · exact congrArg (V c main_v20 : S50000x64.Idx → EReal) (Shape.idx_ext₂ rfl rfl)
  · exact congrArg (V c main_v31 : S1x64.Idx → EReal) (Shape.idx_ext₂ rfl rfl)

theorem final1_cover (i : S50000x64.Idx) :
    ∃ t : Fin cfg1.N, (cfg1.win 4).flush t = true ∧ i ∈ ((cfg1.win 4).blk t).view.set := by
  have hi0 : (i 0).val / 10000 < cfg1.N := by have := idx2_lt0 i; rw [show cfg1.N = 5 from N_1]; omega
  obtain ⟨e40, e41⟩ := final1_idx ⟨_, hi0⟩
  refine ⟨⟨_, hi0⟩, flush1_4 _, ?_⟩
  show i ∈ ((View.whole main_v32).slice (win1_4.rect ⟨_, hi0⟩)).set
  rw [View.set_slice_whole, Rect.mem_set_unit]
  exact rowBlock_mem _ i e40 e41

theorem final3_idx : ∀ t : Fin cfg3.N, win3_4.index t (0 : Fin 2) = t.val ∧ win3_4.index t (1 : Fin 2) = 0 :=
  (by decide +kernel : ∀ t : Fin grid3.N, _)

theorem final3_flushed (c : Dev nD) (t : Fin cfg3.N) :
    (dat3 V c).flushed 4 t
      = ((cfg3.win 4).blk t).view.read (Elt Ideal)
          (finalWhole (V c main_v43) (V c main_v33) (V c main_v11) (V c main_v44)) := by
  show (cfg3.win 4).cut (grid3.coords t) ((dat3 V c).after 4 t) = _
  rw [after3_4]
  unfold out3_4
  rw [View.canon_unit_zero finalOff]
  simp only [View.ld_unit_zero (S := S10000x64) finalOff, View.ld_unit_zero (S := S10000x1) finalOff,
    View.ld_unit_zero (S := S1x64) finalOff]
  funext y
  obtain ⟨p, q, rfl⟩ : ∃ (p : Fin 10000) (q : Fin 64), y = ix2 p q := ⟨y 0, y 1, eq_ix2 y⟩
  unfold k3_pay1
  simp only [shapeCast_self]
  refine (final_apply _ _ _ _ _ _ p q).trans ?_
  refine congrArg₂ max (congrArg₂ (· + ·) (congrArg₂ (· * ·) ?_ (congrArg₂ (· + ·) ?_ ?_)) ?_) rfl
  · exact congrArg (V c main_v11 : S50000x1.Idx → EReal) (Shape.idx_ext₂ rfl rfl)
  · exact congrArg (V c main_v43 : S50000x64.Idx → EReal) (Shape.idx_ext₂ rfl rfl)
  · exact congrArg (V c main_v33 : S50000x64.Idx → EReal) (Shape.idx_ext₂ rfl rfl)
  · exact congrArg (V c main_v44 : S1x64.Idx → EReal) (Shape.idx_ext₂ rfl rfl)

theorem final3_cover (i : S50000x64.Idx) :
    ∃ t : Fin cfg3.N, (cfg3.win 4).flush t = true ∧ i ∈ ((cfg3.win 4).blk t).view.set := by
  have hi0 : (i 0).val / 10000 < cfg3.N := by have := idx2_lt0 i; rw [show cfg3.N = 5 from N_3]; omega
  obtain ⟨e40, e41⟩ := final3_idx ⟨_, hi0⟩
  refine ⟨⟨_, hi0⟩, flush3_4 _, ?_⟩
  show i ∈ ((View.whole main_v45).slice (win3_4.rect ⟨_, hi0⟩)).set
  rw [View.set_slice_whole, Rect.mem_set_unit]
  exact rowBlock_mem _ i e40 e41

end Cert.KernelIdeal.Hand.ValueFinal

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat)
open Idealize.ShloMosaic.ValueIdx
open Cert.KernelIdeal.Hand.ValueFinal

variable (V : (c : Dev nD) → (b : Ref sig .tc) → Buf (Elt Ideal) ((c : Thread nD τ).loc b))

theorem arr1 (c : Dev nD) (r : Fin 50000) (j : Fin 64) :
    ((dat1 V c).arrAt 4 cfg1.N : S50000x64.Idx → EReal) (ix2 r j)
      = GcnSpec.kFinal GcnSpec.zeroW (GcnSpec.mat (V c main_v30 : S50000x64.Idx → EReal)) (GcnSpec.mat (V c main_v20 : S50000x64.Idx → EReal)) (fun r => (V c main_v11 : S50000x1.Idx → EReal) (ix2 r 0)) (fun j => (V c main_v31 : S1x64.Idx → EReal) (ix2 0 j)) r j := by
  exact congrFun ((dat1 V c).arrAt_eq_of_cover 4 _ (fun t _ => final1_flushed V c t) final1_cover) (ix2 r j)

theorem arr3 (c : Dev nD) (r : Fin 50000) (j : Fin 64) :
    ((dat3 V c).arrAt 4 cfg3.N : S50000x64.Idx → EReal) (ix2 r j)
      = GcnSpec.kFinal GcnSpec.zeroW (GcnSpec.mat (V c main_v43 : S50000x64.Idx → EReal)) (GcnSpec.mat (V c main_v33 : S50000x64.Idx → EReal)) (fun r => (V c main_v11 : S50000x1.Idx → EReal) (ix2 r 0)) (fun j => (V c main_v44 : S1x64.Idx → EReal) (ix2 0 j)) r j := by
  exact congrFun ((dat3 V c).arrAt_eq_of_cover 4 _ (fun t _ => final3_flushed V c t) final3_cover) (ix2 r j)

end Cert.KernelIdeal.Hand

end
-- ==== Proof.ValuePool.lean ====
import proofs.«414462_j27805618274378_3_alg».proof.Proof.RegionPool
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibRowLayers
import Idealize.ShloMosaic.Lib.Pipeline.Value
import Idealize.ShloMosaic.Lib.ValueIdx
import Idealize.ShloMosaic.PureOps.Ideal.Laws
import Idealize.ShloMosaic.Lib.StackMember
import Idealize.ShloMosaic.Lib.KernelVsHost
import Mathlib.Algebra.BigOperators.Fin

set_option maxRecDepth 16384

noncomputable section

namespace Cert.KernelIdeal.Hand.ValuePool

open Cert.KernelIdeal Cert.KernelIdeal.Gen Cert.KernelIdeal.GenP
open Idealize.ShloMosaic Idealize.ShloMosaic.TcCoe
open Idealize.SL Idealize.SL.Sem
open Idealize.ShloMosaic.Pipeline (Dat)
open Idealize.ShloMosaic.ValueIdx
open scoped BigOperators

-- A block numbered zero on both axes sits in its array where it sits in itself.
theorem emb_self {n : Fin 2 → Nat} {I : Fin 2 → Nat} (h0 : I 0 = 0) (h1 : I 1 = 0) {x y : (a : Fin 2) → Fin (n a)}
    (hx : ∀ a, (x a).val = I a * n a + 1 * (y a).val) : x = y :=
  Shape.idx_ext₂ (by rw [hx, h0]; omega) (by rw [hx, h1]; omega)

theorem zeroBlock_mem {n : Fin 2 → Nat} {I : Fin 2 → Nat} (h0 : I 0 = 0) (h1 : I 1 = 0) (i : (a : Fin 2) → Fin (n a)) :
    ∀ a : Fin 2, I a * n a ≤ (i a).val ∧ (i a).val < I a * n a + n a :=
  Fin.forall_fin_two.mpr ⟨by have := (i 0).isLt; rw [h0]; omega, by have := (i 1).isLt; rw [h1]; omega⟩

-- The product contracting the rows of both factors, read at an entry, sums over the rows.
theorem poolProduct_apply (A : FVec Ideal S10000x512 .bf16) (B : FVec Ideal S10000x64 .bf16) (g : Fin 512) (k : Fin 64) :
    matmul dot_S10000x512_S10000x64_S512x64_0_0_1_1_n_n none A B (constant S512x64 .f32 0x00000000#32) (ix2 g k)
      = ∑ r : Fin 10000, A (ix2 r g) * B (ix2 r k) := by
  refine (Ideal.matmul_constant_zero_apply _ none A B (ix2 g k)).trans ?_
  rw [← Equiv.sum_comp (contrEquiv1 dot_S10000x512_S10000x64_S512x64_0_0_1_1_n_n 10000 rfl rfl).symm]
  refine Finset.sum_congr rfl fun r _ => ?_
  have hr := contrEquiv1_symm_val dot_S10000x512_S10000x64_S512x64_0_0_1_1_n_n 10000 rfl rfl r
  refine congrArg₂ (fun i j => A i * B j)
    (Shape.idx_ext₂ ((DotDims.lhsIdx_val_of_single _ rfl _ _).trans hr) ?_) (Shape.idx_ext₂ ((DotDims.rhsIdx_val_of_single _ rfl _ _).trans hr) ?_)
  · unfold DotDims.lhsIdx
    rw [dif_neg (show ¬(1 : Fin S10000x512.rank) ∈ dot_S10000x512_S10000x64_S512x64_0_0_1_1_n_n.lhsBatch by decide), dif_pos (show (1 : Fin S10000x512.rank) ∈ dot_S10000x512_S10000x64_S512x64_0_0_1_1_n_n.lhsNonContracting by decide)]
    rfl
  · unfold DotDims.rhsIdx
    rw [dif_neg (show ¬(1 : Fin S10000x64.rank) ∈ dot_S10000x512_S10000x64_S512x64_0_0_1_1_n_n.rhsBatch by decide), dif_pos (show (1 : Fin S10000x64.rank) ∈ dot_S10000x512_S10000x64_S512x64_0_0_1_1_n_n.rhsNonContracting by decide)]
    rfl

theorem memberFactor (a b : BitVec 32) :
    ((((IntOp.cmpi .eq a b).setWidth 32).toInt : ℝ) : EReal) = if a = b then GcnSpec.oneW else GcnSpec.zeroW := by
  by_cases h : a = b
  · subst h
    rw [if_pos rfl, GcnSpec.oneW_eq]
    have e : ((IntOp.cmpi .eq a a).setWidth 32).toInt = 1 := by
      simp only [IntOp.cmpi, beq_self_eq_true]; decide
    rw [e]; norm_cast
  · rw [if_neg h, GcnSpec.zeroW_eq]
    have e : ((IntOp.cmpi .eq a b).setWidth 32).toInt = 0 := by
      have hb : (a == b) = false := by simpa using h
      simp only [IntOp.cmpi, hb]; decide
    rw [e]; norm_cast

theorem pay1_apply (g : Fin 512) (k : Fin 64) : k4_pay1 (F := Ideal) (ix2 g k) = GcnSpec.zeroW := by
  unfold k4_pay1
  rw [shapeCast_self]
  rfl

theorem pay2_apply (ids : Vec Ideal S10000x1 .i32) (rows : Vec Ideal S10000x64 .f32) (prev : Vec Ideal S512x64 .f32)
    (g : Fin 512) (k : Fin 64) :
    k4_pay2 ids rows prev (ix2 g k)
      = prev (ix2 g k) + ∑ r : Fin 10000, (if ids (ix2 r 0) = BitVec.ofNat 32 g.val then GcnSpec.oneW else GcnSpec.zeroW) * rows (ix2 r k) := by
  unfold k4_pay2
  simp only [shapeCast_self]
  refine congrArg (prev (ix2 g k) + ·) ((poolProduct_apply _ _ g k).trans (Finset.sum_congr rfl fun r _ => congrArg (· * rows (ix2 r k)) ?_))
  refine Eq.trans ?_ (memberFactor (ids (ix2 r 0)) (BitVec.ofNat 32 g.val))
  show ((((IntOp.cmpi .eq (broadcastTo S10000x512 ids broadcasts_S10000x1_S10000x512 (ix2 r g))
      (iota .tc S10000x512 32 [1] iota_S10000x512_d1_w32 (ix2 r g))).setWidth 32).toInt : ℝ) : EReal) = _
  rw [RowLayers.broadcastColumn_apply, iota_single_apply]

theorem pay3_apply (acc : Vec Ideal S512x64 .f32) (cnt : Vec Ideal S512x1 .f32) (wl : Vec Ideal S64x2 .f32) (bl : Vec Ideal S1x2 .f32)
    (g : Fin 512) (o : Fin 2) :
    k4_pay3 acc cnt wl bl (ix2 g o)
      = (∑ k : Fin 64, Ideal.div (acc (ix2 g k)) (cnt (ix2 g 0)) * wl (ix2 k o)) + bl (ix2 0 o) := by
  unfold k4_pay3
  simp only [shapeCast_self]
  refine congrArg₂ (· + ·) ?_ (broadcastTo_1b_ab_apply _ _ _ _)
  refine (congrFun (matmul_zero_eq_dotGeneral _ none _ _) _).trans ((StackMember.dotGeneral_plain_apply (m := 512) (k := 64) (n := 2) none _ _ g o).trans ?_)
  refine Finset.sum_congr rfl fun k _ => congrArg (· * wl (ix2 k o)) ?_
  show Ideal.div (acc (ix2 g k)) (broadcastTo S512x64 cnt broadcasts_S512x1_S512x64 (ix2 g k)) = _
  rw [RowLayers.broadcastColumn_apply]

variable (V : (c : Dev nD) → (b : Ref sig .tc) → Buf (Elt Ideal) ((c : Thread nD τ).loc b))

theorem idx_facts4 : ∀ t : Fin cfg4.N, win4_0.index t (0 : Fin 2) = t.val ∧ win4_1.index t (0 : Fin 2) = t.val :=
  (by decide +kernel : ∀ t : Fin grid4.N, _)

theorem points_five : cfg4.N = 5 := N_4

theorem lt_five (t : Fin cfg4.N) : t.val < 5 := by have := t.isLt; have := points_five; omega

theorem sum_blocks {M : Type} [AddCommMonoid M] (m n N : ℕ) (h : m * n = N) (f : Fin N → M) :
    ∑ i : Fin N, f i
      = ∑ a : Fin m, ∑ b : Fin n, f ⟨b.val + n * a.val, h ▸ (finProdFinEquiv (a, b)).isLt⟩ := by
  subst h
  rw [← Equiv.sum_comp finProdFinEquiv f, Fintype.sum_prod_type]
  rfl

def poolTerm (c : Dev nD) (g : Fin 512) (k : Fin 64) (n : Fin 50000) : EReal :=
  (if (V c main_v19 : S50000x1.Idx → BitVec 32) (ix2 n 0) = BitVec.ofNat 32 g.val then GcnSpec.oneW else GcnSpec.zeroW)
    * (V c main_v45 : S50000x64.Idx → EReal) (ix2 n k)

def blockSum (c : Dev nD) (g : Fin 512) (k : Fin 64) (t : ℕ) (ht : t < 5) : EReal :=
  ∑ r : Fin 10000, poolTerm V c g k ⟨r.val + 10000 * t, by omega⟩

def runningSum (c : Dev nD) (g : Fin 512) (k : Fin 64) : (n : ℕ) → n < 5 → EReal
  | 0, h => GcnSpec.zeroW + blockSum V c g k 0 h
  | n + 1, h => runningSum c g k n (Nat.lt_of_succ_lt h) + blockSum V c g k (n + 1) h

theorem step_apply (c : Dev nD) (t : Fin cfg4.N) (prev : Vec Ideal S512x64 .f32) (g : Fin 512) (k : Fin 64) :
    k4_pay2 (iblk4 V c 1 t) (iblk4 V c 0 t) prev (ix2 g k) = prev (ix2 g k) + blockSum V c g k t.val (lt_five t) := by
  obtain ⟨e00, e10⟩ := idx_facts4 t
  refine (pay2_apply _ _ prev g k).trans (congrArg (prev (ix2 g k) + ·) (Finset.sum_congr rfl fun r _ => ?_))
  refine congrArg₂ (fun (x : BitVec 32) (y : EReal) => (if x = BitVec.ofNat 32 g.val then GcnSpec.oneW else GcnSpec.zeroW) * y) ?_ ?_
  · exact congrArg (V c main_v19 : S50000x1.Idx → BitVec 32) (Shape.idx_ext₂
      (by show win4_1.index t 0 * 10000 + 1 * r.val = r.val + 10000 * t.val; rw [e10]; omega)
      rfl)
  · exact congrArg (V c main_v45 : S50000x64.Idx → EReal) (Shape.idx_ext₂
      (by show win4_0.index t 0 * 10000 + 1 * r.val = r.val + 10000 * t.val; rw [e00]; omega)
      (by show 0 * 64 + 1 * k.val = k.val; omega))

theorem accAt_apply (c : Dev nD) (g : Fin 512) (k : Fin 64) :
    ∀ (n : ℕ) (hn : n < cfg4.N), acc4 V c n hn (ix2 g k) = runningSum V c g k n (lt_five ⟨n, hn⟩)
  | 0, hn => by
    rw [acc4_zero V c hn]
    refine (step_apply V c ⟨0, hn⟩ (k4_pay1 (F := Ideal)) g k).trans ?_
    rw [pay1_apply]
    rfl
  | n + 1, hn => by
    rw [acc4_succ V c n hn]
    refine (step_apply V c ⟨n + 1, hn⟩ (acc4 V c n (Nat.lt_of_succ_lt hn)) g k).trans ?_
    rw [accAt_apply c g k n (Nat.lt_of_succ_lt hn)]
    rfl

theorem runningSum_last (c : Dev nD) (g : Fin 512) (k : Fin 64) (n : ℕ) (h : n < 5) (h4 : n = 4) :
    runningSum V c g k n h = ∑ n : Fin 50000, poolTerm V c g k n := by
  subst h4
  rw [sum_blocks 5 10000 50000 rfl (poolTerm V c g k), Fin.sum_univ_five]
  simp only [runningSum]
  rw [GcnSpec.zeroW_eq, zero_add]
  rfl

def pooled (c : Dev nD) : S512x2.Idx → EReal := fun i =>
  GcnSpec.head (GcnSpec.kPoolSum GcnSpec.oneW GcnSpec.zeroW (fun n : Fin 50000 => (V c main_v19 : S50000x1.Idx → BitVec 32) (ix2 n 0)) (GcnSpec.mat (V c main_v45 : S50000x64.Idx → EReal)))
    (fun g => (V c main_v18 : S512x1.Idx → EReal) (ix2 g 0)) (GcnSpec.mat (V c main_arg7 : S64x2.Idx → EReal)) (fun o => (V c main_v46 : S1x2.Idx → EReal) (ix2 0 o)) (i 0) (i 1)

theorem flushedPool_eq (c : Dev nD) (t : Fin cfg4.N) (hf : (cfg4.win 5).flush t = true) :
    (dat4 V c).flushed 5 t = ((cfg4.win 5).blk t).view.read (Elt Ideal) (pooled V c) := by
  have h4 : t.val = 4 := by have := (flush4_5 t).mp hf; have := lt_five t; omega
  show (cfg4.win 5).cut (grid4.coords t) ((dat4 V c).after 5 t) = _
  rw [after4_5 V c t]
  funext y
  obtain ⟨g, o, rfl⟩ : ∃ (g : Fin 512) (o : Fin 2), y = ix2 g o := ⟨y 0, y 1, eq_ix2 y⟩
  show k4_pay3 (acc4 V c t.val t.isLt) (iblk4 V c 4 t) (iblk4 V c 2 t) (iblk4 V c 3 t) (ix2 g o)
      = pooled V c (((cfg4.win 5).blk t).view.emb (ix2 g o))
  rw [show ((cfg4.win 5).blk t).view.emb (ix2 g o) = ix2 g o from emb_self (I := win4_5.index t) rfl rfl fun _ => rfl]
  refine (pay3_apply _ _ _ _ g o).trans (congrArg₂ (· + ·) (Finset.sum_congr rfl fun k _ => ?_)
    (congrArg (V c main_v46 : S1x2.Idx → EReal) (emb_self (I := win4_3.index t) rfl rfl fun _ => rfl)))
  refine congrArg₂ (· * ·) (congrArg₂ Ideal.div ?_ (congrArg (V c main_v18 : S512x1.Idx → EReal) (emb_self (I := win4_4.index t) rfl rfl fun _ => rfl)))
    (congrArg (V c main_arg7 : S64x2.Idx → EReal) (emb_self (I := win4_2.index t) rfl rfl fun _ => rfl))
  exact (accAt_apply V c g k t.val t.isLt).trans (runningSum_last V c g k t.val _ h4)

theorem arrPool (c : Dev nD) : (dat4 V c).arrAt 5 cfg4.N = pooled V c :=
  have h4 : 4 < cfg4.N := by rw [points_five]; decide
  (dat4 V c).arrAt_eq_of_cover 5 (pooled V c) (flushedPool_eq V c) fun i =>
    ⟨⟨4, h4⟩, (flush4_5 _).mpr rfl, by
      show i ∈ ((View.whole main_v47).slice (win4_5.rect ⟨4, h4⟩)).set
      rw [View.set_slice_whole, Rect.mem_set_unit]
      exact zeroBlock_mem (I := win4_5.index ⟨4, h4⟩) rfl rfl i⟩

end Cert.KernelIdeal.Hand.ValuePool

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat)
open Idealize.ShloMosaic.ValueIdx
open scoped BigOperators
open Cert.KernelIdeal.Hand.ValuePool

variable (V : (c : Dev nD) → (b : Ref sig .tc) → Buf (Elt Ideal) ((c : Thread nD τ).loc b))

theorem arr4 (c : Dev nD) (g : Fin 512) (o : Fin 2) :
    ((dat4 V c).arrAt 5 cfg4.N : S512x2.Idx → EReal) (ix2 g o)
      = GcnSpec.head (GcnSpec.kPoolSum GcnSpec.oneW GcnSpec.zeroW (fun n : Fin 50000 => (V c main_v19 : S50000x1.Idx → BitVec 32) (ix2 n 0)) (GcnSpec.mat (V c main_v45 : S50000x64.Idx → EReal)))
          (fun g => (V c main_v18 : S512x1.Idx → EReal) (ix2 g 0)) (GcnSpec.mat (V c main_arg7 : S64x2.Idx → EReal)) (fun o => (V c main_v46 : S1x2.Idx → EReal) (ix2 0 o)) g o :=
  congrFun (arrPool V c) (ix2 g o)

end Cert.KernelIdeal.Hand

end
-- ==== Proof.LibGatherScatter.lean ====
import Idealize.ShloMosaic.PureOps.Ideal
import Idealize.ShloMosaic.Lib.ValueIdx

open scoped BigOperators

namespace GatherScatter

open Idealize.ShloMosaic Idealize.ShloMosaic.ValueIdx

-- An update lands on `i` exactly when start plus window coordinate is `i`'s coordinate on every axis.
theorem resultIdx?_eq_some_iff {s si u : Shape} {w : ℕ} (d : ScatterDims s si u) (q : u.Idx) (idx : IVec si w)
    (i : s.Idx) :
    d.resultIdx? q idx = some i ↔ ∀ a, d.start q idx a + (d.window q a : ℤ) = ((i a).val : ℤ) := by
  unfold ScatterDims.resultIdx?
  split
  · rename_i h
    rw [Option.some.injEq, funext_iff]
    refine forall_congr' fun a => ?_
    rw [Fin.ext_iff]
    show (d.start q idx a + (d.window q a : ℤ)).toNat = (i a).val ↔ _
    have := h a
    omega
  · rename_i h
    refine iff_of_false (by simp) fun hi => h fun a => ?_
    have := hi a
    have := (i a).isLt
    omega

section ScatterRows
variable {n e k w : ℕ}

theorem scatterAdd_rows_apply (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1)
    (x : FVec Ideal ⟨2, ![n, k]⟩ .f32) (idx : IVec ⟨2, ![e, 1]⟩ w) (upd : FVec Ideal ⟨2, ![e, k]⟩ .f32) (i : Fin n) (j : Fin k) :
    Host.scatterAdd d x idx upd (ix2 i j)
      = x (ix2 i j) + ∑ r ∈ Finset.univ.filter (fun r : Fin e => (idx (ix2 r (0 : Fin 1))).toInt = (i.val : ℤ)), upd (ix2 r j) := by
  obtain ⟨uw, iw, sd, iv, wf⟩ := d
  subst huw hiw hsd hiv
  have key : ∀ q : (⟨2, ![e, k]⟩ : Shape).Idx, ScatterDims.resultIdx? ⟨[1], [0], [0], 1, wf⟩ q idx = some (ix2 i j)
      ↔ (idx (ix2 (q 0) (0 : Fin 1))).toInt = (i.val : ℤ) ∧ q 1 = j := fun q => by
    have hsi : ∀ p, ScatterDims.siIdx ⟨[1], [0], [0], 1, wf⟩ q p = ix2 (q 0) (0 : Fin 1) := fun p => by
      funext b; refine Fin.ext ?_
      match b with
      | ⟨0, _⟩ => rfl
      | ⟨1, _⟩ => exact Nat.lt_one_iff.1 p.isLt
    rw [resultIdx?_eq_some_iff, Fin.forall_fin_two]
    show (idx (ScatterDims.siIdx _ q _)).toInt + 0 = (i.val : ℤ) ∧ (0 : ℤ) + ((q 1).val : ℤ) = (j.val : ℤ) ↔ _
    rw [hsi, add_zero, zero_add]
    exact and_congr_right' ⟨fun h => Fin.ext (by omega), fun h => by rw [← h]⟩
  show x (ix2 i j) + _ = _
  congr 1
  refine Finset.sum_nbij' (fun q => q 0) (fun r => ix2 r j) ?_ ?_ ?_ ?_ ?_
  · exact fun q hq => Finset.mem_filter.2 ⟨Finset.mem_univ _, ((key q).1 (Finset.mem_filter.1 hq).2).1⟩
  · exact fun r hr => Finset.mem_filter.2 ⟨Finset.mem_univ _, (key _).2 ⟨(Finset.mem_filter.1 hr).2, rfl⟩⟩
  · exact fun q hq => by rw [← ((key q).1 (Finset.mem_filter.1 hq).2).2]; exact (eq_ix2 q).symm
  · exact fun r _ => rfl
  · exact fun q hq => by rw [← ((key q).1 (Finset.mem_filter.1 hq).2).2]; exact congrArg upd (eq_ix2 q)

end ScatterRows

section GatherRows
variable {α : Type} {n e k w : ℕ}

theorem gather_rows_apply (hn : 0 < n) (d : GatherDims ⟨2, ![n, k]⟩ ⟨2, ![e, 1]⟩ ⟨2, ![e, k]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, k])
    (x : (⟨2, ![n, k]⟩ : Shape).Idx → α) (idx : IVec ⟨2, ![e, 1]⟩ w) (r : Fin e) (j : Fin k) :
    Host.gather d x idx (ix2 r j)
      = x (ix2 (⟨min (idx (ix2 r (0 : Fin 1))).toInt.toNat (n - 1), by omega⟩ : Fin n) j) := by
  obtain ⟨od, cs, ob, sb, sm, iv, ss, wf⟩ := d
  subst hod hcs hob hsb hsm hiv hss
  have hsi : ∀ p, GatherDims.siIdx (s := ⟨2, ![n, k]⟩) ⟨[1], [0], [], [], [0], 1, ![1, k], wf⟩ (ix2 r j) p = ix2 r (0 : Fin 1) := fun p => by
    funext b; refine Fin.ext ?_
    match b with
    | ⟨0, _⟩ => rfl
    | ⟨1, _⟩ => exact Nat.lt_one_iff.1 p.isLt
  refine congrArg x (funext fun a => Fin.ext ?_)
  match a with
  | ⟨0, _⟩ =>
    show min (idx (GatherDims.siIdx _ _ _)).toInt.toNat (n - 1) + 0 + 0 = min (idx (ix2 r (0 : Fin 1))).toInt.toNat (n - 1)
    rw [hsi]; rfl
  | ⟨1, _⟩ => exact Nat.zero_add _

end GatherRows

section ScatterVec
variable {n e w : ℕ}

theorem scatterAdd_vec_apply (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1)
    (x : FVec Ideal ⟨1, ![n]⟩ .f32) (idx : IVec ⟨2, ![e, 1]⟩ w) (upd : FVec Ideal ⟨1, ![e]⟩ .f32) (i : Fin n) :
    Host.scatterAdd d x idx upd (ix1 i)
      = x (ix1 i) + ∑ r ∈ Finset.univ.filter (fun r : Fin e => (idx (ix2 r (0 : Fin 1))).toInt = (i.val : ℤ)), upd (ix1 r) := by
  obtain ⟨uw, iw, sd, iv, wf⟩ := d
  subst huw hiw hsd hiv
  have key : ∀ q : (⟨1, ![e]⟩ : Shape).Idx, ScatterDims.resultIdx? ⟨[], [0], [0], 1, wf⟩ q idx = some (ix1 i)
      ↔ (idx (ix2 (q 0) (0 : Fin 1))).toInt = (i.val : ℤ) := fun q => by
    have hsi : ∀ p, ScatterDims.siIdx ⟨[], [0], [0], 1, wf⟩ q p = ix2 (q 0) (0 : Fin 1) := fun p => by
      funext b; refine Fin.ext ?_
      match b with
      | ⟨0, _⟩ => rfl
      | ⟨1, _⟩ => exact Nat.lt_one_iff.1 p.isLt
    rw [resultIdx?_eq_some_iff, Fin.forall_fin_one]
    show (idx (ScatterDims.siIdx _ q _)).toInt + 0 = (i.val : ℤ) ↔ _
    rw [hsi, add_zero]
    exact Iff.rfl
  show x (ix1 i) + _ = _
  congr 1
  refine Finset.sum_nbij' (fun q => q 0) (fun r => ix1 r) ?_ ?_ ?_ ?_ ?_
  · exact fun q hq => Finset.mem_filter.2 ⟨Finset.mem_univ _, (key q).1 (Finset.mem_filter.1 hq).2⟩
  · exact fun r hr => Finset.mem_filter.2 ⟨Finset.mem_univ _, (key _).2 (Finset.mem_filter.1 hr).2⟩
  · exact fun q _ => (eq_ix1 q).symm
  · exact fun r _ => rfl
  · exact fun q _ => congrArg upd (eq_ix1 q)

end ScatterVec

end GatherScatter
-- ==== Proof.KernelHost.lean ====
import proofs.«414462_j27805618274378_3_alg».proof.Proof.LaunchKernelIdeal
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibRowLayers
import proofs.«414462_j27805618274378_3_alg».proof.Proof.LibGatherScatter
import Idealize.ShloMosaic.Lib.StableHlo.Run
import Idealize.ShloMosaic.Lib.Pipeline.Value
import Idealize.ShloMosaic.Lib.ValueLayout
import Idealize.ShloMosaic.Lib.ValueIdx

noncomputable section

open scoped BigOperators

namespace Cert.KernelIdeal.Hand.KernelHost

open Cert.KernelIdeal Cert.KernelIdeal.Gen Cert.KernelIdeal.GenP
open Idealize.ShloMosaic Idealize.ShloMosaic.ValueIdx

theorem rowAsVector_apply {α : Type} {m n : ℕ} (o : ℕ) (A : (⟨2, ![m, n]⟩ : Shape).Idx → α)
    (h : (⟨2, ![m, n]⟩ : Shape).Slices ![o, 0] ⟨2, ![1, n]⟩) (hc : (⟨2, ![1, n]⟩ : Shape).ShapeCasts ⟨1, ![n]⟩)
    (k : Fin m) (hk : k.val = o) (e : Fin n) :
    shapeCast ⟨1, ![n]⟩ (extractStridedSlice ⟨2, ![1, n]⟩ ![o, 0] A h) hc (ix1 e) = A (ix2 k e) := by
  rw [shapeCast_1a_a_apply, slice2_axis0_apply o A h 0 e k hk]

theorem hostRsqrt_apply {s : Shape} {φ : FTy} (a : FVec Ideal s φ) (i : s.Idx) : Host.rsqrt a i = Ideal.rsqrt (a i) := rfl

theorem countAt_apply {n e : ℕ} (d : ScatterDims ⟨1, ![n]⟩ ⟨2, ![e, 1]⟩ ⟨1, ![e]⟩) (huw : d.updateWindowDims = [])
    (hiw : d.insertedWindowDims = [0]) (hsd : d.scatterDimsToOperandDims = [0]) (hiv : d.indexVectorDim = 1)
    (zero one : BitVec 32) (hz : (⟨0, ![]⟩ : Shape).BroadcastsInDim ⟨1, ![n]⟩ ![]) (ho : (⟨0, ![]⟩ : Shape).BroadcastsInDim ⟨1, ![e]⟩ ![])
    (hcol : (⟨1, ![e]⟩ : Shape).BroadcastsInDim ⟨2, ![e, 1]⟩ ![0]) (ids : (⟨1, ![e]⟩ : Shape).Idx → BitVec 32) (i : Fin n) :
    Host.scatterAdd d (broadcastInDim ⟨1, ![n]⟩ ![] hz (constant (F := Ideal) ⟨0, ![]⟩ .f32 zero))
        (broadcastInDim ⟨2, ![e, 1]⟩ ![0] hcol ids) (broadcastInDim ⟨1, ![e]⟩ ![] ho (constant (F := Ideal) ⟨0, ![]⟩ .f32 one)) (ix1 i)
      = Ideal.ofBits .f32 zero + ∑ r ∈ Finset.univ.filter (fun r : Fin e => (ids (ix1 r)).toInt = (i.val : ℤ)), Ideal.ofBits .f32 one := by
  rw [GatherScatter.scatterAdd_vec_apply d huw hiw hsd hiv]
  refine congrArg₂ (· + ·) rfl (Finset.sum_congr (Finset.filter_congr fun r _ => ?_) fun r _ => rfl)
  rw [RowLayers.columnBroadcast_apply]

theorem wrap_word (v : BitVec 32) :
    Scalar.select (IntOp.cmpi .slt v 0#32) (IntOp.addi v 50000#32) v = GcnSpec.wrapId 50000 v := by
  unfold Scalar.select IntOp.cmpi IntOp.addi GcnSpec.wrapId
  cases h : v.slt 0#32 <;> simp

theorem edgeSum_apply (src wsrc dst : S800000.Idx → BitVec 32)
    (hw : ∀ e : Fin 800000, wsrc (ix1 e) = GcnSpec.wrapId 50000 (src (ix1 e))) (Y : S50000x64.Idx → EReal) (i : Fin 50000) (j : Fin 64) :
    Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 dst)
        (Host.gather gather_S50000x64_S800000x1_S800000x64_1_0_n_n_0_1_164 Y
          (broadcastInDim S800000x1 ![0] bcast_S800000_S800000x1_0 wsrc)) (ix2 i j)
      = GcnSpec.kScat (by decide) GcnSpec.zeroW (GcnSpec.vec src) (GcnSpec.vec dst) (GcnSpec.mat Y) i j := by
  rw [GatherScatter.scatterAdd_rows_apply _ rfl rfl rfl rfl]
  unfold GcnSpec.kScat
  refine congrArg₂ (· + ·) rfl (Finset.sum_congr (Finset.filter_congr fun e _ => ?_) fun e _ => ?_)
  · rw [RowLayers.columnBroadcast_apply]; exact Iff.rfl
  · rw [GatherScatter.gather_rows_apply (by decide) _ rfl rfl rfl rfl rfl rfl rfl]
    have hid : broadcastInDim S800000x1 ![0] bcast_S800000_S800000x1_0 wsrc (ix2 e 0) = GcnSpec.wrapId 50000 (src (ix1 e)) :=
      (RowLayers.columnBroadcast_apply _ wsrc e 0).trans (hw e)
    exact congrArg (fun v : BitVec 32 => Y (ix2 (⟨min v.toInt.toNat (50000 - 1), by omega⟩ : Fin 50000) j)) hid

end Cert.KernelIdeal.Hand.KernelHost

namespace Cert.KernelIdeal.Hand

open Cert.KernelIdeal Cert.KernelIdeal.Gen Cert.KernelIdeal.GenP
open Idealize.ShloMosaic Idealize.ShloMosaic.ValueIdx
open Cert.KernelIdeal.Hand.KernelHost

theorem host0_src (W : Valuation τ sig (Elt Ideal)) (e : Fin 800000) :
    (StableHlo.after hostOps0 W (Proc.devRef .tc main_v1) : S800000.Idx → BitVec 32) (ix1 e)
      = (W (Proc.devRef .tc main_arg1) : S2x800000.Idx → BitVec 32) (ix2 0 e) := by
  after_results
  exact rowAsVector_apply 0 _ _ _ 0 rfl e

theorem host0_dst (W : Valuation τ sig (Elt Ideal)) (e : Fin 800000) :
    (StableHlo.after hostOps0 W (Proc.devRef .tc main_v3) : S800000.Idx → BitVec 32) (ix1 e)
      = (W (Proc.devRef .tc main_arg1) : S2x800000.Idx → BitVec 32) (ix2 1 e) := by
  after_results
  exact rowAsVector_apply 1 _ _ _ 1 rfl e

theorem host0_d (W : Valuation τ sig (Elt Ideal)) (r : Fin 50000) :
    (StableHlo.after hostOps0 W (Proc.devRef .tc main_v11) : S50000x1.Idx → EReal) (ix2 r 0)
      = Ideal.rsqrt (GcnSpec.kDeg GcnSpec.oneW GcnSpec.zeroW
          (GcnSpec.rowOf (W (Proc.devRef .tc main_arg1) : S2x800000.Idx → BitVec 32) 1) r) := by
  after_results
  refine (RowLayers.column_apply _ _ r 0).trans ?_
  rw [hostRsqrt_apply, addf_apply, countAt_apply _ rfl rfl rfl rfl]
  unfold GcnSpec.kDeg
  refine congrArg Ideal.rsqrt (congrArg₂ (· + ·) (congrArg₂ (· + ·) rfl
    (Finset.sum_congr (Finset.filter_congr fun e _ => ?_) fun e _ => rfl)) rfl)
  exact Eq.congr_left (congrArg BitVec.toInt (rowAsVector_apply 1 _ _ _ 1 rfl e))

theorem host0_cnt (W : Valuation τ sig (Elt Ideal)) (g : Fin 512) :
    (StableHlo.after hostOps0 W (Proc.devRef .tc main_v18) : S512x1.Idx → EReal) (ix2 g 0)
      = GcnSpec.memberCount GcnSpec.oneW GcnSpec.zeroW
          (GcnSpec.vec (W (Proc.devRef .tc main_arg2) : S50000.Idx → BitVec 32)) g := by
  after_results
  refine (RowLayers.column_apply _ _ g 0).trans ?_
  rw [maximumf_apply, countAt_apply _ rfl rfl rfl rfl]
  rfl

theorem host0_batch (W : Valuation τ sig (Elt Ideal)) (n : Fin 50000) :
    (StableHlo.after hostOps0 W (Proc.devRef .tc main_v19) : S50000x1.Idx → BitVec 32) (ix2 n 0)
      = (W (Proc.devRef .tc main_arg2) : S50000.Idx → BitVec 32) (ix1 n) := by
  after_results
  exact RowLayers.column_apply _ _ n 0

theorem host1_scat (W : Valuation τ sig (Elt Ideal)) (i : Fin 50000) (j : Fin 64) :
    (StableHlo.after hostOps1 W (Proc.devRef .tc main_v30) : S50000x64.Idx → EReal) (ix2 i j)
      = GcnSpec.kScat (by decide) GcnSpec.zeroW
          (GcnSpec.vec (W (Proc.devRef .tc main_v1) : S800000.Idx → BitVec 32))
          (GcnSpec.vec (W (Proc.devRef .tc main_v3) : S800000.Idx → BitVec 32))
          (GcnSpec.mat (W (Proc.devRef .tc main_v20) : S50000x64.Idx → EReal)) i j := by
  after_results
  refine edgeSum_apply _ _ _ ?_ _ i j
  exact fun e => wrap_word _

theorem host1_bias (W : Valuation τ sig (Elt Ideal)) (j : Fin 64) :
    (StableHlo.after hostOps1 W (Proc.devRef .tc main_v31) : S1x64.Idx → EReal) (ix2 0 j)
      = (W (Proc.devRef .tc main_arg4) : S64.Idx → EReal) (ix1 j) := by
  after_results
  exact shapeCast_a_1a_apply _ _ 0 j

theorem host3_scat (W : Valuation τ sig (Elt Ideal)) (i : Fin 50000) (j : Fin 64) :
    (StableHlo.after hostOps3 W (Proc.devRef .tc main_v43) : S50000x64.Idx → EReal) (ix2 i j)
      = GcnSpec.kScat (by decide) GcnSpec.zeroW
          (GcnSpec.vec (W (Proc.devRef .tc main_v1) : S800000.Idx → BitVec 32))
          (GcnSpec.vec (W (Proc.devRef .tc main_v3) : S800000.Idx → BitVec 32))
          (GcnSpec.mat (W (Proc.devRef .tc main_v33) : S50000x64.Idx → EReal)) i j := by
  after_results
  refine edgeSum_apply _ _ _ ?_ _ i j
  exact fun e => wrap_word _

theorem host3_bias (W : Valuation τ sig (Elt Ideal)) (j : Fin 64) :
    (StableHlo.after hostOps3 W (Proc.devRef .tc main_v44) : S1x64.Idx → EReal) (ix2 0 j)
      = (W (Proc.devRef .tc main_arg6) : S64.Idx → EReal) (ix1 j) := by
  after_results
  exact shapeCast_a_1a_apply _ _ 0 j

theorem host4_bias (W : Valuation τ sig (Elt Ideal)) (o : Fin 2) :
    (StableHlo.after hostOps4 W (Proc.devRef .tc main_v46) : S1x2.Idx → EReal) (ix2 0 o)
      = (W (Proc.devRef .tc main_arg8) : S2.Idx → EReal) (ix1 o) := by
  after_results
  exact shapeCast_a_1a_apply _ _ 0 o

end Cert.KernelIdeal.Hand

end
-- ==== Proof.KernelValue.lean ====
import proofs.«414462_j27805618274378_3_alg».proof.Proof.Fold
import proofs.«414462_j27805618274378_3_alg».proof.Proof.ValueRegions
import proofs.«414462_j27805618274378_3_alg».proof.Proof.ValueFinal
import proofs.«414462_j27805618274378_3_alg».proof.Proof.ValuePool
import proofs.«414462_j27805618274378_3_alg».proof.Proof.KernelHost
import proofs.«414462_j27805618274378_3_alg».proof.Proof.Spec
import proofs.«414462_j27805618274378_3_alg».proof.Proof.Consts
import proofs.«414462_j27805618274378_3_alg».proof.Proof.Views

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem

variable (m : (ℓ : Loc nD τ sig) → Buf (Elt Ideal) ℓ) (c : Dev nD)

abbrev kvA0 : S50000x128.Idx → EReal := m ((c.tc : Thread nD τ).loc main_arg0)
abbrev kvA1 : S2x800000.Idx → BitVec 32 := m ((c.tc : Thread nD τ).loc main_arg1)
abbrev kvA2 : S50000.Idx → BitVec 32 := m ((c.tc : Thread nD τ).loc main_arg2)
abbrev kvA3 : S128x64.Idx → EReal := m ((c.tc : Thread nD τ).loc main_arg3)
abbrev kvA4 : S64.Idx → EReal := m ((c.tc : Thread nD τ).loc main_arg4)
abbrev kvA5 : S64x64.Idx → EReal := m ((c.tc : Thread nD τ).loc main_arg5)
abbrev kvA6 : S64.Idx → EReal := m ((c.tc : Thread nD τ).loc main_arg6)
abbrev kvA7 : S64x2.Idx → EReal := m ((c.tc : Thread nD τ).loc main_arg7)
abbrev kvA8 : S2.Idx → EReal := m ((c.tc : Thread nD τ).loc main_arg8)

namespace KernelValue

abbrev wr0 : List (Ref sig .tc) := [main_v0, main_v1, main_v2, main_v3, main_cst, main_v4, main_cst_0, main_v5, main_v6, main_v7, main_cst_1, main_v8, main_v9, main_v10, main_v11, main_cst_2, main_v12, main_cst_3, main_v13, main_v14, main_v15, main_cst_4, main_v16, main_v17, main_v18, main_v19]

abbrev wr1 : List (Ref sig .tc) := [main_c, main_v21, main_v22, main_c_5, main_v23, main_v24, main_v25, main_v26, main_v27, main_cst_6, main_v28, main_v29, main_v30, main_v31]

abbrev wr3 : List (Ref sig .tc) := [main_c_7, main_v34, main_v35, main_c_8, main_v36, main_v37, main_v38, main_v39, main_v40, main_cst_9, main_v41, main_v42, main_v43, main_v44]

abbrev wr4 : List (Ref sig .tc) := [main_v46]

abbrev Writes (ops : List (HloOp τ sig (Elt Ideal))) (wr : List (Ref sig .tc)) : Prop :=
  ops.Forall fun op => op.writes ⊆ (wr.map (Proc.devRef (τ := τ) .tc)).toFinset

theorem writesAll : Writes hostOps0 wr0 ∧ Writes hostOps1 wr1 ∧ Writes hostOps3 wr3 ∧ Writes hostOps4 wr4 := by
  simp only [Writes, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem keep {ops : List (HloOp τ sig (Elt Ideal))} {wr : List (Ref sig .tc)} (hw : Writes ops wr) (W : Valuation τ sig (Elt Ideal))
    (r : Ref sig .tc) (h : r ∉ wr) : StableHlo.after ops W (Proc.devRef .tc r) = W (Proc.devRef .tc r) :=
  StableHlo.after_of_writes_sub ops W hw h

-- What is none of the regions' arrays and in none of the later write lists is unchanged.
theorem carry (b : Ref sig .tc)
    (h : (∀ w, Pipeline.arrRef spec0 w ≠ b) ∧ b ∉ wr1 ∧ (∀ w, Pipeline.arrRef spec1 w ≠ b) ∧ (∀ w, Pipeline.arrRef spec2 w ≠ b)
      ∧ b ∉ wr3 ∧ (∀ w, Pipeline.arrRef spec3 w ≠ b) ∧ b ∉ wr4) :
    W2 m c (Proc.devRef .tc b) = W1 m c (Proc.devRef .tc b) ∧ W5 m c (Proc.devRef .tc b) = W1 m c (Proc.devRef .tc b)
      ∧ W7 m c (Proc.devRef .tc b) = W1 m c (Proc.devRef .tc b) ∧ W8 m c (Proc.devRef .tc b) = W1 m c (Proc.devRef .tc b) := by
  obtain ⟨h0, h1, h2, h3, h4, h5, h6⟩ := h
  have e5 := (W5_of_ne m c b h3).trans ((W4_of_ne m c b h2).trans ((keep writesAll.2.1 (W2 m c) b h1).trans (W2_of_ne m c b h0)))
  have e7 := (W7_of_ne m c b h5).trans ((keep writesAll.2.2.1 (W5 m c) b h4).trans e5)
  exact ⟨W2_of_ne m c b h0, e5, e7, (keep writesAll.2.2.2 (W7 m c) b h6).trans e7⟩

-- The degree factors are read by every region and written by none.
theorem v11_kept : W3 m c (Proc.devRef .tc main_v11) = W1 m c (Proc.devRef .tc main_v11)
    ∧ W4 m c (Proc.devRef .tc main_v11) = W1 m c (Proc.devRef .tc main_v11)
    ∧ W6 m c (Proc.devRef .tc main_v11) = W1 m c (Proc.devRef .tc main_v11) := by
  have e3 := (keep writesAll.2.1 (W2 m c) main_v11 (by decide)).trans
    ((W2_arr m c 2).trans (((dat0 (V1 m) c).arrAt_in 2 rfl _).trans (A_eq0 (V1 m) c 2)))
  have e4 := ((W4_arr m c 2).trans (((dat1 (V3 m) c).arrAt_in 2 rfl _).trans (A_eq1 (V3 m) c 2))).trans e3
  exact ⟨e3, e4, (keep writesAll.2.2.1 (W5 m c) main_v11 (by decide)).trans
    (((W5_arr m c 2).trans (((dat2 (V4 m) c).arrAt_in 2 rfl _).trans (A_eq2 (V4 m) c 2))).trans e4)⟩

def dfac : GcnSpec.Col 50000 :=
  fun i => Ideal.rsqrt (GcnSpec.kDeg GcnSpec.oneW GcnSpec.zeroW (GcnSpec.rowOf (kvA1 m c) 1) i)

def Y1 : GcnSpec.Mat 50000 64 := GcnSpec.kScaled (GcnSpec.mat (kvA0 m c)) (GcnSpec.mat (kvA3 m c)) (dfac m c)

def Esum1 : GcnSpec.Mat 50000 64 :=
  GcnSpec.kScat (by decide) GcnSpec.zeroW (GcnSpec.rowOf (kvA1 m c) 0) (GcnSpec.rowOf (kvA1 m c) 1) (Y1 m c)

def H1 : GcnSpec.Mat 50000 64 := GcnSpec.kFinal GcnSpec.zeroW (Esum1 m c) (Y1 m c) (dfac m c) (GcnSpec.vec (kvA4 m c))

def Y2 : GcnSpec.Mat 50000 64 := GcnSpec.kScaled (H1 m c) (GcnSpec.mat (kvA5 m c)) (dfac m c)

def Esum2 : GcnSpec.Mat 50000 64 :=
  GcnSpec.kScat (by decide) GcnSpec.zeroW (GcnSpec.rowOf (kvA1 m c) 0) (GcnSpec.rowOf (kvA1 m c) 1) (Y2 m c)

def H2 : GcnSpec.Mat 50000 64 := GcnSpec.kFinal GcnSpec.zeroW (Esum2 m c) (Y2 m c) (dfac m c) (GcnSpec.vec (kvA6 m c))

theorem e1_arg0 : (V1 m c main_arg0 : S50000x128.Idx → EReal) = kvA0 m c := keep writesAll.1 (W0 m c) main_arg0 (by decide)
theorem e1_arg3 : (V1 m c main_arg3 : S128x64.Idx → EReal) = kvA3 m c := keep writesAll.1 (W0 m c) main_arg3 (by decide)
theorem e1_src : GcnSpec.vec (V1 m c main_v1 : S800000.Idx → BitVec 32) = GcnSpec.rowOf (kvA1 m c) 0 :=
  funext fun e => host0_src (W0 m c) e
theorem e1_dst : GcnSpec.vec (V1 m c main_v3 : S800000.Idx → BitVec 32) = GcnSpec.rowOf (kvA1 m c) 1 :=
  funext fun e => host0_dst (W0 m c) e
theorem e1_d : (fun r : Fin 50000 => (V1 m c main_v11 : S50000x1.Idx → EReal) (ix2 r 0)) = dfac m c :=
  funext fun r => host0_d (W0 m c) r
theorem e1_cnt : (fun g : Fin 512 => (V1 m c main_v18 : S512x1.Idx → EReal) (ix2 g 0))
    = GcnSpec.memberCount GcnSpec.oneW GcnSpec.zeroW (GcnSpec.vec (kvA2 m c)) :=
  funext fun g => host0_cnt (W0 m c) g
theorem e1_batch : (fun n : Fin 50000 => (V1 m c main_v19 : S50000x1.Idx → BitVec 32) (ix2 n 0)) = GcnSpec.vec (kvA2 m c) :=
  funext fun n => host0_batch (W0 m c) n

theorem e2_v20 : GcnSpec.mat (V2 m c main_v20 : S50000x64.Idx → EReal) = Y1 m c := by
  funext r j
  refine ((congrFun (W2_arr m c 3) (ix2 r j)).trans (arr0 (V1 m) c r j)).trans ?_
  rw [e1_arg0, e1_arg3, e1_d]; rfl
theorem e2_arg4 : (V2 m c main_arg4 : S64.Idx → EReal) = kvA4 m c :=
  (carry m c main_arg4 (by decide)).1.trans (keep writesAll.1 (W0 m c) main_arg4 (by decide))

theorem e4_v32 : GcnSpec.mat (V4 m c main_v32 : S50000x64.Idx → EReal) = H1 m c := by
  funext r j
  refine ((congrFun (W4_arr m c 4) (ix2 r j)).trans (arr1 (V3 m) c r j)).trans ?_
  have es : GcnSpec.mat (V3 m c main_v30 : S50000x64.Idx → EReal) = Esum1 m c := funext fun i => funext fun j => by
    refine (host1_scat (W2 m c) i j).trans ?_
    rw [(carry m c main_v1 (by decide)).1, (carry m c main_v3 (by decide)).1, e1_src, e1_dst, e2_v20]; rfl
  have eb : (fun j : Fin 64 => (V3 m c main_v31 : S1x64.Idx → EReal) (ix2 0 j)) = GcnSpec.vec (kvA4 m c) :=
    funext fun j => (host1_bias (W2 m c) j).trans (congrFun (e2_arg4 m c) (ix1 j))
  rw [es, eb, show V3 m c main_v20 = V2 m c main_v20 from keep writesAll.2.1 (W2 m c) main_v20 (by decide), e2_v20,
    show V3 m c main_v11 = V1 m c main_v11 from (v11_kept m c).1, e1_d]; rfl
theorem e4_arg5 : (V4 m c main_arg5 : S64x64.Idx → EReal) = kvA5 m c :=
  (W4_of_ne m c _ (by decide)).trans ((keep writesAll.2.1 (W2 m c) _ (by decide)).trans
    ((W2_of_ne m c _ (by decide)).trans (keep writesAll.1 (W0 m c) main_arg5 (by decide))))

theorem e5_v33 : GcnSpec.mat (V5 m c main_v33 : S50000x64.Idx → EReal) = Y2 m c := by
  funext r j
  refine ((congrFun (W5_arr m c 3) (ix2 r j)).trans (arr2 (V4 m) c r j)).trans ?_
  rw [e4_v32, e4_arg5, show V4 m c main_v11 = V1 m c main_v11 from (v11_kept m c).2.1, e1_d]; rfl
theorem e5_arg6 : (V5 m c main_arg6 : S64.Idx → EReal) = kvA6 m c :=
  (carry m c main_arg6 (by decide)).2.1.trans (keep writesAll.1 (W0 m c) main_arg6 (by decide))

theorem e7_v45 : GcnSpec.mat (V7 m c main_v45 : S50000x64.Idx → EReal) = H2 m c := by
  funext r j
  refine ((congrFun (W7_arr m c 4) (ix2 r j)).trans (arr3 (V6 m) c r j)).trans ?_
  have es : GcnSpec.mat (V6 m c main_v43 : S50000x64.Idx → EReal) = Esum2 m c := funext fun i => funext fun j => by
    refine (host3_scat (W5 m c) i j).trans ?_
    rw [(carry m c main_v1 (by decide)).2.1, (carry m c main_v3 (by decide)).2.1, e1_src, e1_dst, e5_v33]; rfl
  have eb : (fun j : Fin 64 => (V6 m c main_v44 : S1x64.Idx → EReal) (ix2 0 j)) = GcnSpec.vec (kvA6 m c) :=
    funext fun j => (host3_bias (W5 m c) j).trans (congrFun (e5_arg6 m c) (ix1 j))
  rw [es, eb, show V6 m c main_v33 = V5 m c main_v33 from keep writesAll.2.2.1 (W5 m c) main_v33 (by decide), e5_v33,
    show V6 m c main_v11 = V1 m c main_v11 from (v11_kept m c).2.2, e1_d]; rfl
theorem e7_arg8 : (V7 m c main_arg8 : S2.Idx → EReal) = kvA8 m c :=
  (carry m c main_arg8 (by decide)).2.2.1.trans (keep writesAll.1 (W0 m c) main_arg8 (by decide))
theorem e8_arg7 : (V8 m c main_arg7 : S64x2.Idx → EReal) = kvA7 m c :=
  (carry m c main_arg7 (by decide)).2.2.2.trans (keep writesAll.1 (W0 m c) main_arg7 (by decide))

end KernelValue

open KernelValue in

theorem kernel_value (g : Fin 512) (o : Fin 2) :
    (W9 m c (Proc.devRef .tc main_v47) : S512x2.Idx → EReal) (ix2 g o)
      = GcnSpec.kNet (N := 50000) (by decide) GcnSpec.oneW GcnSpec.zeroW
          (GcnSpec.rowOf (kvA1 m c) 0) (GcnSpec.rowOf (kvA1 m c) 1) (GcnSpec.vec (kvA2 m c))
          (GcnSpec.mat (kvA0 m c)) (GcnSpec.mat (kvA3 m c)) (GcnSpec.vec (kvA4 m c)) (GcnSpec.mat (kvA5 m c)) (GcnSpec.vec (kvA6 m c))
          (GcnSpec.mat (kvA7 m c)) (GcnSpec.vec (kvA8 m c)) g o :=
  by
  refine ((congrFun (W9_arr m c 5) (ix2 g o)).trans (arr4 (V8 m) c g o)).trans ?_
  have eb : (fun o : Fin 2 => (V8 m c main_v46 : S1x2.Idx → EReal) (ix2 0 o)) = GcnSpec.vec (kvA8 m c) :=
    funext fun o => (host4_bias (W7 m c) o).trans (congrFun (e7_arg8 m c) (ix1 o))
  rw [eb, show V8 m c main_v19 = V1 m c main_v19 from (carry m c _ (by decide)).2.2.2, e1_batch,
    show V8 m c main_v45 = V7 m c main_v45 from keep writesAll.2.2.2 (W7 m c) main_v45 (by decide), e7_v45,
    show V8 m c main_v18 = V1 m c main_v18 from (carry m c _ (by decide)).2.2.2, e1_cnt, e8_arg7]; rfl

end Cert.KernelIdeal.Hand

end
-- ==== Proof.RefRead.lean ====
import proofs.«414462_j27805618274378_3_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S50000, .i32⟩ : BufTy).Contents (Elt F) :=
  iotaInDim S50000 32 0

def val_main_v1 (x1 : (⟨S2x800000, .i32⟩ : BufTy).Contents (Elt F)) : (⟨S1x800000, .i32⟩ : BufTy).Contents (Elt F) :=
  extractStridedSlice S1x800000 ![0, 0] (x1) slices_S2x800000_S1x800000_0_0

abbrev idx_main_v1 (i : S1x800000.Idx) : S2x800000.Idx := fun a => match a with
  | ⟨0, _⟩ => ⟨(i 0).val, by have h0 : (i 0).val < 1 := (i 0).isLt; show (i 0).val < 2; omega⟩
  | ⟨1, _⟩ => ⟨(i 1).val, (i 1).isLt⟩

theorem val_main_v1_apply (x1 : (⟨S2x800000, .i32⟩ : BufTy).Contents (Elt F)) (i : S1x800000.Idx) :
    val_main_v1 (F := F) x1 i = x1 (idx_main_v1 i) := by
  unfold val_main_v1
  exact extractStridedSlice_apply ![0, 0] x1 slices_S2x800000_S1x800000_0_0 i (idx_main_v1 i) (fun a => match a with
    | ⟨0, _⟩ => by show (i 0).val = 0 + (i 0).val; omega
    | ⟨1, _⟩ => by show (i 1).val = 0 + (i 1).val; omega)

def val_main_v2 (x1 : (⟨S2x800000, .i32⟩ : BufTy).Contents (Elt F)) : (⟨S800000, .i32⟩ : BufTy).Contents (Elt F) :=
  shapeCast _ (val_main_v1 (F := F) x1) shapeCasts_S1x800000_S800000

abbrev idx_main_v2 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩

theorem val_main_v2_apply (x1 : (⟨S2x800000, .i32⟩ : BufTy).Contents (Elt F)) (i : S800000.Idx) :
    val_main_v2 (F := F) x1 i = val_main_v1 (F := F) x1 (idx_main_v2 i) := by
  unfold val_main_v2
  generalize val_main_v1 (F := F) x1 = y
  exact shapeCast_apply y shapeCasts_S1x800000_S800000 i (idx_main_v2 i)
    (by rewrite [Shape.rowMajor_val_two, Shape.rowMajor_val_one]; have h0 : (i 0).val < 800000 := (i 0).isLt; show 0 * 800000 + ((i 0).val) % 800000 = (i 0).val; omega)

def val_main_v3 (x1 : (⟨S2x800000, .i32⟩ : BufTy).Contents (Elt F)) : (⟨S850000, .i32⟩ : BufTy).Contents (Elt F) :=
  concatenate S850000 0 [⟨S800000, (val_main_v2 (F := F) x1)⟩, ⟨S50000, (val_main_v0 (F := F))⟩] concatenates_S800000_S50000_S850000_d0

def val_main_v4 (x1 : (⟨S2x800000, .i32⟩ : BufTy).Contents (Elt F)) : (⟨S1x800000, .i32⟩ : BufTy).Contents (Elt F) :=
  extractStridedSlice S1x800000 ![1, 0] (x1) slices_S2x800000_S1x800000_1_0

abbrev idx_main_v4 (i : S1x800000.Idx) : S2x800000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩

theorem val_main_v4_apply (x1 : (⟨S2x800000, .i32⟩ : BufTy).Contents (Elt F)) (i : S1x800000.Idx) :
    val_main_v4 (F := F) x1 i = x1 (idx_main_v4 i) := by
  unfold val_main_v4
  exact extractStridedSlice_apply ![1, 0] x1 slices_S2x800000_S1x800000_1_0 i (idx_main_v4 i) (fun a => match a with
    | ⟨0, _⟩ => by show 1 + (i 0).val = 1 + (i 0).val; omega
    | ⟨1, _⟩ => by show (i 1).val = 0 + (i 1).val; omega)

def val_main_v5 (x1 : (⟨S2x800000, .i32⟩ : BufTy).Contents (Elt F)) : (⟨S800000, .i32⟩ : BufTy).Contents (Elt F) :=
  shapeCast _ (val_main_v4 (F := F) x1) shapeCasts_S1x800000_S800000

abbrev idx_main_v5 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩

theorem val_main_v5_apply (x1 : (⟨S2x800000, .i32⟩ : BufTy).Contents (Elt F)) (i : S800000.Idx) :
    val_main_v5 (F := F) x1 i = val_main_v4 (F := F) x1 (idx_main_v5 i) := by
  unfold val_main_v5
  generalize val_main_v4 (F := F) x1 = y
  exact shapeCast_apply y shapeCasts_S1x800000_S800000 i (idx_main_v5 i)
    (by rewrite [Shape.rowMajor_val_two, Shape.rowMajor_val_one]; have h0 : (i 0).val < 800000 := (i 0).isLt; show 0 * 800000 + ((i 0).val) % 800000 = (i 0).val; omega)

def val_main_v6 (x1 : (⟨S2x800000, .i32⟩ : BufTy).Contents (Elt F)) : (⟨S850000, .i32⟩ : BufTy).Contents (Elt F) :=
  concatenate S850000 0 [⟨S800000, (val_main_v5 (F := F) x1)⟩, ⟨S50000, (val_main_v0 (F := F))⟩] concatenates_S800000_S50000_S850000_d0

def val_main_cst : (⟨S_, .f32⟩ : BufTy).Contents (Elt F) :=
  constant S_ .f32 0x3F800000#32

theorem val_main_cst_apply (i : S_.Idx) :
    val_main_cst (F := F) i = FloatOps.ofBits .f32 0x3F800000#32 := rfl

def val_main_v7 : (⟨S850000, .f32⟩ : BufTy).Contents (Elt F) :=
  broadcastInDim S850000 ![] bcast_S_S850000 (val_main_cst (F := F))

abbrev idx_main_v7 (i : S850000.Idx) : S_.Idx := fun a => a.elim0

theorem val_main_v7_apply (i : S850000.Idx) :
    val_main_v7 (F := F) i = val_main_cst (F := F) (idx_main_v7 i) := by
  unfold val_main_v7
  generalize val_main_cst (F := F) = y
  exact broadcastInDim_apply _ bcast_S_S850000 y i (idx_main_v7 i) (fun a => a.elim0)

def val_main_cst_0 : (⟨S_, .f32⟩ : BufTy).Contents (Elt F) :=
  constant S_ .f32 0x00000000#32

theorem val_main_cst_0_apply (i : S_.Idx) :
    val_main_cst_0 (F := F) i = FloatOps.ofBits .f32 0x00000000#32 := rfl

def val_main_v8 : (⟨S50000, .f32⟩ : BufTy).Contents (Elt F) :=
  broadcastInDim S50000 ![] bcast_S_S50000 (val_main_cst_0 (F := F))

abbrev idx_main_v8 (i : S50000.Idx) : S_.Idx := fun a => a.elim0

theorem val_main_v8_apply (i : S50000.Idx) :
    val_main_v8 (F := F) i = val_main_cst_0 (F := F) (idx_main_v8 i) := by
  unfold val_main_v8
  generalize val_main_cst_0 (F := F) = y
  exact broadcastInDim_apply _ bcast_S_S50000 y i (idx_main_v8 i) (fun a => a.elim0)

def val_main_v9 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

abbrev idx_main_v9 (i : S850000x1.Idx) : S850000.Idx := fun a => match a with
  | ⟨0, _⟩ => ⟨(i 0).val, (i 0).isLt⟩

theorem val_main_v9_apply (x1 : (⟨S2x800000, .i32⟩ : BufTy).Contents (Elt F)) (i : S850000x1.Idx) :
    val_main_v9 (F := F) x1 i = val_main_v6 (F := F) x1 (idx_main_v9 i) := by
  unfold val_main_v9
  generalize val_main_v6 (F := F) x1 = y
  exact broadcastInDim_apply _ bcast_S850000_S850000x1_0 y i (idx_main_v9 i) (fun a => match a with
    | ⟨0, _⟩ => by show (i 0).val = if (850000 : Nat) = 1 then 0 else (i 0).val; rw [if_neg (by decide)])

def val_main_v10 (x1 : (⟨S2x800000, .i32⟩ : BufTy).Contents (Elt F)) : (⟨S50000, .f32⟩ : BufTy).Contents (Elt F) :=
  Host.scatterAdd scatter_S50000_S850000x1_S850000_n_0_0_1 (val_main_v8 (F := F)) (val_main_v9 (F := F) x1) (val_main_v7 (F := F))

def val_main_cst_1 : (⟨S_, .f32⟩ : BufTy).Contents (Elt F) :=
  constant S_ .f32 0x00000000#32

theorem val_main_cst_1_apply (i : S_.Idx) :
    val_main_cst_1 (F := F) i = FloatOps.ofBits .f32 0x00000000#32 := rfl

def val_main_v11 : (⟨S50000, .f32⟩ : BufTy).Contents (Elt F) :=
  broadcastInDim S50000 ![] bcast_S_S50000 (val_main_cst_1 (F := F))

abbrev idx_main_v11 (i : S50000.Idx) : S_.Idx := fun a => a.elim0

theorem val_main_v11_apply (i : S50000.Idx) :
    val_main_v11 (F := F) i = val_main_cst_1 (F := F) (idx_main_v11 i) := by
  unfold val_main_v11
  generalize val_main_cst_1 (F := F) = y
  exact broadcastInDim_apply _ bcast_S_S50000 y i (idx_main_v11 i) (fun a => a.elim0)

def val_main_v12 (x1 : (⟨S2x800000, .i32⟩ : BufTy).Contents (Elt F)) : (⟨S50000, .i1⟩ : BufTy).Contents (Elt F) :=
  cmpf .ogt (val_main_v10 (F := F) x1) (val_main_v11 (F := F))

theorem val_main_v12_apply (x1 : (⟨S2x800000, .i32⟩ : BufTy).Contents (Elt F)) (i : S50000.Idx) :
    val_main_v12 (F := F) x1 i = FloatOps.cmpf .ogt (val_main_v10 (F := F) x1 i) (val_main_v11 (F := F) i) := rfl

def val_main_v13 (x1 : (⟨S2x800000, .i32⟩ : BufTy).Contents (Elt F)) : (⟨S50000, .f32⟩ : BufTy).Contents (Elt F) :=
  Host.rsqrt (val_main_v10 (F := F) x1)

theorem val_main_v13_apply (x1 : (⟨S2x800000, .i32⟩ : BufTy).Contents (Elt F)) (i : S50000.Idx) :
    val_main_v13 (F := F) x1 i = FloatOps.hostUnary .rsqrt (val_main_v10 (F := F) x1 i) := rfl

def val_main_cst_2 : (⟨S_, .f32⟩ : BufTy).Contents (Elt F) :=
  constant S_ .f32 0x00000000#32

theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))

theorem val_main_call0_v0_apply (i : S_.Idx) :
    val_main_call0_v0 (F := F) i = (val_main_cst_2 (F := F) i) := rfl

def val_main_call0_v1 : (⟨S50000, .f32⟩ : BufTy).Contents (Elt F) :=
  broadcastInDim S50000 ![] bcast_S_S50000 (val_main_call0_v0 (F := F))

abbrev idx_main_call0_v1 (i : S50000.Idx) : S_.Idx := fun a => a.elim0

theorem val_main_call0_v1_apply (i : S50000.Idx) :
    val_main_call0_v1 (F := F) i = val_main_call0_v0 (F := F) (idx_main_call0_v1 i) := by
  unfold val_main_call0_v1
  generalize val_main_call0_v0 (F := F) = y
  exact broadcastInDim_apply _ bcast_S_S50000 y i (idx_main_call0_v1 i) (fun a => a.elim0)

def val_main_v14 (x1 : (⟨S2x800000, .i32⟩ : BufTy).Contents (Elt F)) : (⟨S50000, .f32⟩ : BufTy).Contents (Elt F) :=
  select (val_main_v12 (F := F) x1) (val_main_v13 (F := F) x1) (val_main_call0_v1 (F := F))

theorem val_main_v14_apply (x1 : (⟨S2x800000, .i32⟩ : BufTy).Contents (Elt F)) (i : S50000.Idx) :
    val_main_v14 (F := F) x1 i = Scalar.select (val_main_v12 (F := F) x1 i) (val_main_v13 (F := F) x1 i) (val_main_call0_v1 (F := F) i) := rfl

def val_main_c : (⟨S_, .i32⟩ : BufTy).Contents (Elt F) :=
  constantI S_ 32 0#32

theorem val_main_c_apply (i : S_.Idx) :
    val_main_c (F := F) i = 0#32 := rfl

def val_main_v15 : (⟨S850000, .i32⟩ : BufTy).Contents (Elt F) :=
  broadcastInDim S850000 ![] bcast_S_S850000 (val_main_c (F := F))

abbrev idx_main_v15 (i : S850000.Idx) : S_.Idx := fun a => a.elim0

theorem val_main_v15_apply (i : S850000.Idx) :
    val_main_v15 (F := F) i = val_main_c (F := F) (idx_main_v15 i) := by
  unfold val_main_v15
  generalize val_main_c (F := F) = y
  exact broadcastInDim_apply _ bcast_S_S850000 y i (idx_main_v15 i) (fun a => a.elim0)

def val_main_v16 (x1 : (⟨S2x800000, .i32⟩ : BufTy).Contents (Elt F)) : (⟨S850000, .i1⟩ : BufTy).Contents (Elt F) :=
  cmpi .slt (val_main_v3 (F := F) x1) (val_main_v15 (F := F))

def val_main_c_3 : (⟨S_, .i32⟩ : BufTy).Contents (Elt F) :=
  constantI S_ 32 50000#32

theorem val_main_c_3_apply (i : S_.Idx) :
    val_main_c_3 (F := F) i = 50000#32 := rfl

def val_main_v17 : (⟨S850000, .i32⟩ : BufTy).Contents (Elt F) :=
  broadcastInDim S850000 ![] bcast_S_S850000 (val_main_c_3 (F := F))

abbrev idx_main_v17 (i : S850000.Idx) : S_.Idx := fun a => a.elim0

theorem val_main_v17_apply (i : S850000.Idx) :
    val_main_v17 (F := F) i = val_main_c_3 (F := F) (idx_main_v17 i) := by
  unfold val_main_v17
  generalize val_main_c_3 (F := F) = y
  exact broadcastInDim_apply _ bcast_S_S850000 y i (idx_main_v17 i) (fun a => a.elim0)

def val_main_v18 (x1 : (⟨S2x800000, .i32⟩ : BufTy).Contents (Elt F)) : (⟨S850000, .i32⟩ : BufTy).Contents (Elt F) :=
  addi (val_main_v3 (F := F) x1) (val_main_v17 (F := F))

def val_main_v19 (x1 : (⟨S2x800000, .i32⟩ : BufTy).Contents (Elt F)) : (⟨S850000, .i32⟩ : BufTy).Contents (Elt F) :=
  select (val_main_v16 (F := F) x1) (val_main_v18 (F := F) x1) (val_main_v3 (F := F) x1)

def val_main_v20 (x1 : (⟨S2x800000, .i32⟩ : BufTy).Contents (Elt F)) : (⟨S850000x1, .i32⟩ : BufTy).Contents (Elt F) :=
  broadcastInDim S850000x1 ![0] bcast_S850000_S850000x1_0 (val_main_v19 (F := F) x1)

def val_main_v21 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v20 (F := F) x1)

def val_main_c_4 : (⟨S_, .i32⟩ : BufTy).Contents (Elt F) :=
  constantI S_ 32 0#32

def val_main_v22 : (⟨S850000, .i32⟩ : BufTy).Contents (Elt F) :=
  broadcastInDim S850000 ![] bcast_S_S850000 (val_main_c_4 (F := F))

def val_main_v23 (x1 : (⟨S2x800000, .i32⟩ : BufTy).Contents (Elt F)) : (⟨S850000, .i1⟩ : BufTy).Contents (Elt F) :=
  cmpi .slt (val_main_v6 (F := F) x1) (val_main_v22 (F := F))

def val_main_c_5 : (⟨S_, .i32⟩ : BufTy).Contents (Elt F) :=
  constantI S_ 32 50000#32

def val_main_v24 : (⟨S850000, .i32⟩ : BufTy).Contents (Elt F) :=
  broadcastInDim S850000 ![] bcast_S_S850000 (val_main_c_5 (F := F))

def val_main_v25 (x1 : (⟨S2x800000, .i32⟩ : BufTy).Contents (Elt F)) : (⟨S850000, .i32⟩ : BufTy).Contents (Elt F) :=
  addi (val_main_v6 (F := F) x1) (val_main_v24 (F := F))

def val_main_v26 (x1 : (⟨S2x800000, .i32⟩ : BufTy).Contents (Elt F)) : (⟨S850000, .i32⟩ : BufTy).Contents (Elt F) :=
  select (val_main_v23 (F := F) x1) (val_main_v25 (F := F) x1) (val_main_v6 (F := F) x1)

def val_main_v27 (x1 : (⟨S2x800000, .i32⟩ : BufTy).Contents (Elt F)) : (⟨S850000x1, .i32⟩ : BufTy).Contents (Elt F) :=
  broadcastInDim S850000x1 ![0] bcast_S850000_S850000x1_0 (val_main_v26 (F := F) x1)

def val_main_v28 (x1 : (⟨S2x800000, .i32⟩ : BufTy).Contents (Elt F)) : (⟨S850000, .f32⟩ : BufTy).Contents (Elt F) :=
  Host.gather gather_S50000_S850000x1_S850000_n_0_n_n_0_1_1 (val_main_v14 (F := F) x1) (val_main_v27 (F := F) x1)

def val_main_v29 (x1 : (⟨S2x800000, .i32⟩ : BufTy).Contents (Elt F)) : (⟨S850000, .f32⟩ : BufTy).Contents (Elt F) :=
  mulf (val_main_v21 (F := F) x1) (val_main_v28 (F := F) x1)

def val_main_v30 (x0 : (⟨S50000x128, .f32⟩ : BufTy).Contents (Elt F)) (x3 : (⟨S128x64, .f32⟩ : BufTy).Contents (Elt F)) : (⟨S50000x64, .f32⟩ : BufTy).Contents (Elt F) :=
  Host.dotGeneral dot_S50000x128_S128x64_S50000x64_1_0_0_1_n_n none (x0) (x3)

theorem lhs_main_v30_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl

theorem lhs_main_v30_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q

theorem rhs_main_v30_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q

theorem rhs_main_v30_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

abbrev lidx_main_v30 (i : S50000x64.Idx) (k : Fin 128) : S50000x128.Idx := fun a => match a with
  | ⟨0, _⟩ => ⟨(i 0).val, (i 0).isLt⟩
  | ⟨1, _⟩ => ⟨k.val, k.isLt⟩

abbrev ridx_main_v30 (i : S50000x64.Idx) (k : Fin 128) : S128x64.Idx := fun a => match a with
  | ⟨0, _⟩ => ⟨k.val, k.isLt⟩
  | ⟨1, _⟩ => ⟨(i 1).val, (i 1).isLt⟩

theorem val_main_v30_apply (x0 : (⟨S50000x128, .f32⟩ : BufTy).Contents (Elt Ideal)) (x3 : (⟨S128x64, .f32⟩ : BufTy).Contents (Elt Ideal)) (i : S50000x64.Idx) :
    val_main_v30 (F := Ideal) x0 x3 i = ∑ k : Fin 128, x0 (lidx_main_v30 i k) * x3 (ridx_main_v30 i k) := by
  unfold val_main_v30
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32

def val_main_v31 : (⟨S850000, .i32⟩ : BufTy).Contents (Elt F) :=
  broadcastInDim S850000 ![] bcast_S_S850000 (val_main_c_6 (F := F))

def val_main_v32 (x1 : (⟨S2x800000, .i32⟩ : BufTy).Contents (Elt F)) : (⟨S850000, .i1⟩ : BufTy).Contents (Elt F) :=
  cmpi .slt (val_main_v3 (F := F) x1) (val_main_v31 (F := F))

def val_main_c_7 : (⟨S_, .i32⟩ : BufTy).Contents (Elt F) :=
  constantI S_ 32 50000#32

def val_main_v33 : (⟨S850000, .i32⟩ : BufTy).Contents (Elt F) :=
  broadcastInDim S850000 ![] bcast_S_S850000 (val_main_c_7 (F := F))

def val_main_v34 (x1 : (⟨S2x800000, .i32⟩ : BufTy).Contents (Elt F)) : (⟨S850000, .i32⟩ : BufTy).Contents (Elt F) :=
  addi (val_main_v3 (F := F) x1) (val_main_v33 (F := F))

def val_main_v35 (x1 : (⟨S2x800000, .i32⟩ : BufTy).Contents (Elt F)) : (⟨S850000, .i32⟩ : BufTy).Contents (Elt F) :=
  select (val_main_v32 (F := F) x1) (val_main_v34 (F := F) x1) (val_main_v3 (F := F) x1)

def val_main_v36 (x1 : (⟨S2x800000, .i32⟩ : BufTy).Contents (Elt F)) : (⟨S850000x1, .i32⟩ : BufTy).Contents (Elt F) :=
  broadcastInDim S850000x1 ![0] bcast_S850000_S850000x1_0 (val_main_v35 (F := F) x1)

def val_main_v37 (x0 : (⟨S50000x128, .f32⟩ : BufTy).Contents (Elt F)) (x1 : (⟨S2x800000, .i32⟩ : BufTy).Contents (Elt F)) (x3 : (⟨S128x64, .f32⟩ : BufTy).Contents (Elt F)) : (⟨S850000x64, .f32⟩ : BufTy).Contents (Elt F) :=
  Host.gather gather_S50000x64_S850000x1_S850000x64_1_0_n_n_0_1_164 (val_main_v30 (F := F) x0 x3) (val_main_v36 (F := F) x1)

def val_main_v38 (x1 : (⟨S2x800000, .i32⟩ : BufTy).Contents (Elt F)) : (⟨S850000x1, .f32⟩ : BufTy).Contents (Elt F) :=
  broadcastInDim S850000x1 ![0] bcast_S850000_S850000x1_0 (val_main_v29 (F := F) x1)

abbrev idx_main_v38 (i : S850000x1.Idx) : S850000.Idx := fun a => match a with
  | ⟨0, _⟩ => ⟨(i 0).val, (i 0).isLt⟩

theorem val_main_v38_apply (x1 : (⟨S2x800000, .i32⟩ : BufTy).Contents (Elt F)) (i : S850000x1.Idx) :
    val_main_v38 (F := F) x1 i = val_main_v29 (F := F) x1 (idx_main_v38 i) := by
  unfold val_main_v38
  generalize val_main_v29 (F := F) x1 = y
  exact broadcastInDim_apply _ bcast_S850000_S850000x1_0 y i (idx_main_v38 i) (fun a => match a with
    | ⟨0, _⟩ => by show (i 0).val = if (850000 : Nat) = 1 then 0 else (i 0).val; rw [if_neg (by decide)])

def val_main_v39 (x1 : (⟨S2x800000, .i32⟩ : BufTy).Contents (Elt F)) : (⟨S850000x64, .f32⟩ : BufTy).Contents (Elt F) :=
  broadcastInDim S850000x64 ![0, 1] bcast_S850000x1_S850000x64_0_1 (val_main_v38 (F := F) x1)

abbrev idx_main_v39 (i : S850000x64.Idx) : S850000x1.Idx := fun a => match a with
  | ⟨0, _⟩ => ⟨(i 0).val, (i 0).isLt⟩
  | ⟨1, _⟩ => ⟨0, Nat.one_pos⟩

theorem val_main_v39_apply (x1 : (⟨S2x800000, .i32⟩ : BufTy).Contents (Elt F)) (i : S850000x64.Idx) :
    val_main_v39 (F := F) x1 i = val_main_v38 (F := F) x1 (idx_main_v39 i) := by
  unfold val_main_v39
  generalize val_main_v38 (F := F) x1 = y
  exact broadcastInDim_apply _ bcast_S850000x1_S850000x64_0_1 y i (idx_main_v39 i) (fun a => match a with
    | ⟨0, _⟩ => by show (i 0).val = if (850000 : Nat) = 1 then 0 else (i 0).val; rw [if_neg (by decide)]
    | ⟨1, _⟩ => by show 0 = if (1 : Nat) = 1 then 0 else (i 1).val; rw [if_pos rfl])

def val_main_v40 (x0 : (⟨S50000x128, .f32⟩ : BufTy).Contents (Elt F)) (x1 : (⟨S2x800000, .i32⟩ : BufTy).Contents (Elt F)) (x3 : (⟨S128x64, .f32⟩ : BufTy).Contents (Elt F)) : (⟨S850000x64, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32

theorem val_main_cst_8_apply (i : S_.Idx) :
    val_main_cst_8 (F := F) i = FloatOps.ofBits .f32 0x00000000#32 := rfl

def val_main_v41 : (⟨S50000x64, .f32⟩ : BufTy).Contents (Elt F) :=
  broadcastInDim S50000x64 ![] bcast_S_S50000x64 (val_main_cst_8 (F := F))

abbrev idx_main_v41 (i : S50000x64.Idx) : S_.Idx := fun a => a.elim0

theorem val_main_v41_apply (i : S50000x64.Idx) :
    val_main_v41 (F := F) i = val_main_cst_8 (F := F) (idx_main_v41 i) := by
  unfold val_main_v41
  generalize val_main_cst_8 (F := F) = y
  exact broadcastInDim_apply _ bcast_S_S50000x64 y i (idx_main_v41 i) (fun a => a.elim0)

def val_main_v42 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v43 (x0 : (⟨S50000x128, .f32⟩ : BufTy).Contents (Elt F)) (x1 : (⟨S2x800000, .i32⟩ : BufTy).Contents (Elt F)) (x3 : (⟨S128x64, .f32⟩ : BufTy).Contents (Elt F)) : (⟨S50000x64, .f32⟩ : BufTy).Contents (Elt F) :=
  Host.scatterAdd scatter_S50000x64_S850000x1_S850000x64_1_0_0_1 (val_main_v41 (F := F)) (val_main_v42 (F := F) x1) (val_main_v40 (F := F) x0 x1 x3)

def val_main_v44 (x4 : (⟨S64, .f32⟩ : BufTy).Contents (Elt F)) : (⟨S1x64, .f32⟩ : BufTy).Contents (Elt F) :=
  broadcastInDim S1x64 ![1] bcast_S64_S1x64_1 (x4)

abbrev idx_main_v44 (i : S1x64.Idx) : S64.Idx := fun a => match a with
  | ⟨0, _⟩ => ⟨(i 1).val, (i 1).isLt⟩

theorem val_main_v44_apply (x4 : (⟨S64, .f32⟩ : BufTy).Contents (Elt F)) (i : S1x64.Idx) :
    val_main_v44 (F := F) x4 i = x4 (idx_main_v44 i) := by
  unfold val_main_v44
  exact broadcastInDim_apply _ bcast_S64_S1x64_1 x4 i (idx_main_v44 i) (fun a => match a with
    | ⟨0, _⟩ => by show (i 1).val = if (64 : Nat) = 1 then 0 else (i 1).val; rw [if_neg (by decide)])

def val_main_v45 (x4 : (⟨S64, .f32⟩ : BufTy).Contents (Elt F)) : (⟨S50000x64, .f32⟩ : BufTy).Contents (Elt F) :=
  broadcastInDim S50000x64 ![0, 1] bcast_S1x64_S50000x64_0_1 (val_main_v44 (F := F) x4)

abbrev idx_main_v45 (i : S50000x64.Idx) : S1x64.Idx := fun a => match a with
  | ⟨0, _⟩ => ⟨0, Nat.one_pos⟩
  | ⟨1, _⟩ => ⟨(i 1).val, (i 1).isLt⟩

theorem val_main_v45_apply (x4 : (⟨S64, .f32⟩ : BufTy).Contents (Elt F)) (i : S50000x64.Idx) :
    val_main_v45 (F := F) x4 i = val_main_v44 (F := F) x4 (idx_main_v45 i) := by
  unfold val_main_v45
  generalize val_main_v44 (F := F) x4 = y
  exact broadcastInDim_apply _ bcast_S1x64_S50000x64_0_1 y i (idx_main_v45 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v46 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) : (⟨S50000x64, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32

theorem val_main_call1_cst_apply (i : S_.Idx) :
    val_main_call1_cst (F := F) i = FloatOps.ofBits .f32 0x00000000#32 := rfl

def val_main_call1_v0 : (⟨S50000x64, .f32⟩ : BufTy).Contents (Elt F) :=
  broadcastInDim S50000x64 ![] bcast_S_S50000x64 (val_main_call1_cst (F := F))

abbrev idx_main_call1_v0 (i : S50000x64.Idx) : S_.Idx := fun a => a.elim0

theorem val_main_call1_v0_apply (i : S50000x64.Idx) :
    val_main_call1_v0 (F := F) i = val_main_call1_cst (F := F) (idx_main_call1_v0 i) := by
  unfold val_main_call1_v0
  generalize val_main_call1_cst (F := F) = y
  exact broadcastInDim_apply _ bcast_S_S50000x64 y i (idx_main_call1_v0 i) (fun a => a.elim0)

def val_main_v47 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) : (⟨S50000x64, .f32⟩ : BufTy).Contents (Elt F) :=
  maximumf (val_main_v46 (F := F) x0 x1 x3 x4) (val_main_call1_v0 (F := F))

def val_main_v48 : (⟨S50000, .i32⟩ : BufTy).Contents (Elt F) :=
  iotaInDim S50000 32 0

def val_main_v49 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v50 (x1 : (⟨S2x800000, .i32⟩ : BufTy).Contents (Elt F)) : (⟨S800000, .i32⟩ : BufTy).Contents (Elt F) :=
  shapeCast _ (val_main_v49 (F := F) x1) shapeCasts_S1x800000_S800000

def val_main_v51 (x1 : (⟨S2x800000, .i32⟩ : BufTy).Contents (Elt F)) : (⟨S850000, .i32⟩ : BufTy).Contents (Elt F) :=
  concatenate S850000 0 [⟨S800000, (val_main_v50 (F := F) x1)⟩, ⟨S50000, (val_main_v48 (F := F))⟩] concatenates_S800000_S50000_S850000_d0

def val_main_v52 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v53 (x1 : (⟨S2x800000, .i32⟩ : BufTy).Contents (Elt F)) : (⟨S800000, .i32⟩ : BufTy).Contents (Elt F) :=
  shapeCast _ (val_main_v52 (F := F) x1) shapeCasts_S1x800000_S800000

def val_main_v54 (x1 : (⟨S2x800000, .i32⟩ : BufTy).Contents (Elt F)) : (⟨S850000, .i32⟩ : BufTy).Contents (Elt F) :=
  concatenate S850000 0 [⟨S800000, (val_main_v53 (F := F) x1)⟩, ⟨S50000, (val_main_v48 (F := F))⟩] concatenates_S800000_S50000_S850000_d0

def val_main_cst_9 : (⟨S_, .f32⟩ : BufTy).Contents (Elt F) :=
  constant S_ .f32 0x3F800000#32

def val_main_v55 : (⟨S850000, .f32⟩ : BufTy).Contents (Elt F) :=
  broadcastInDim S850000 ![] bcast_S_S850000 (val_main_cst_9 (F := F))

def val_main_cst_10 : (⟨S_, .f32⟩ : BufTy).Contents (Elt F) :=
  constant S_ .f32 0x00000000#32

def val_main_v56 : (⟨S50000, .f32⟩ : BufTy).Contents (Elt F) :=
  broadcastInDim S50000 ![] bcast_S_S50000 (val_main_cst_10 (F := F))

def val_main_v57 (x1 : (⟨S2x800000, .i32⟩ : BufTy).Contents (Elt F)) : (⟨S850000x1, .i32⟩ : BufTy).Contents (Elt F) :=
  broadcastInDim S850000x1 ![0] bcast_S850000_S850000x1_0 (val_main_v54 (F := F) x1)

def val_main_v58 (x1 : (⟨S2x800000, .i32⟩ : BufTy).Contents (Elt F)) : (⟨S50000, .f32⟩ : BufTy).Contents (Elt F) :=
  Host.scatterAdd scatter_S50000_S850000x1_S850000_n_0_0_1 (val_main_v56 (F := F)) (val_main_v57 (F := F) x1) (val_main_v55 (F := F))

def val_main_cst_11 : (⟨S_, .f32⟩ : BufTy).Contents (Elt F) :=
  constant S_ .f32 0x00000000#32

def val_main_v59 : (⟨S50000, .f32⟩ : BufTy).Contents (Elt F) :=
  broadcastInDim S50000 ![] bcast_S_S50000 (val_main_cst_11 (F := F))

def val_main_v60 (x1 : (⟨S2x800000, .i32⟩ : BufTy).Contents (Elt F)) : (⟨S50000, .i1⟩ : BufTy).Contents (Elt F) :=
  cmpf .ogt (val_main_v58 (F := F) x1) (val_main_v59 (F := F))

def val_main_v61 (x1 : (⟨S2x800000, .i32⟩ : BufTy).Contents (Elt F)) : (⟨S50000, .f32⟩ : BufTy).Contents (Elt F) :=
  Host.rsqrt (val_main_v58 (F := F) x1)

def val_main_cst_12 : (⟨S_, .f32⟩ : BufTy).Contents (Elt F) :=
  constant S_ .f32 0x00000000#32

def val_main_call2_v0 : (⟨S_, .f32⟩ : BufTy).Contents (Elt F) :=
  id (val_main_cst_12 (F := F))

def val_main_call2_v1 : (⟨S50000, .f32⟩ : BufTy).Contents (Elt F) :=
  broadcastInDim S50000 ![] bcast_S_S50000 (val_main_call2_v0 (F := F))

def val_main_v62 (x1 : (⟨S2x800000, .i32⟩ : BufTy).Contents (Elt F)) : (⟨S50000, .f32⟩ : BufTy).Contents (Elt F) :=
  select (val_main_v60 (F := F) x1) (val_main_v61 (F := F) x1) (val_main_call2_v1 (F := F))

def val_main_c_13 : (⟨S_, .i32⟩ : BufTy).Contents (Elt F) :=
  constantI S_ 32 0#32

def val_main_v63 : (⟨S850000, .i32⟩ : BufTy).Contents (Elt F) :=
  broadcastInDim S850000 ![] bcast_S_S850000 (val_main_c_13 (F := F))

def val_main_v64 (x1 : (⟨S2x800000, .i32⟩ : BufTy).Contents (Elt F)) : (⟨S850000, .i1⟩ : BufTy).Contents (Elt F) :=
  cmpi .slt (val_main_v51 (F := F) x1) (val_main_v63 (F := F))

def val_main_c_14 : (⟨S_, .i32⟩ : BufTy).Contents (Elt F) :=
  constantI S_ 32 50000#32

def val_main_v65 : (⟨S850000, .i32⟩ : BufTy).Contents (Elt F) :=
  broadcastInDim S850000 ![] bcast_S_S850000 (val_main_c_14 (F := F))

def val_main_v66 (x1 : (⟨S2x800000, .i32⟩ : BufTy).Contents (Elt F)) : (⟨S850000, .i32⟩ : BufTy).Contents (Elt F) :=
  addi (val_main_v51 (F := F) x1) (val_main_v65 (F := F))

def val_main_v67 (x1 : (⟨S2x800000, .i32⟩ : BufTy).Contents (Elt F)) : (⟨S850000, .i32⟩ : BufTy).Contents (Elt F) :=
  select (val_main_v64 (F := F) x1) (val_main_v66 (F := F) x1) (val_main_v51 (F := F) x1)

def val_main_v68 (x1 : (⟨S2x800000, .i32⟩ : BufTy).Contents (Elt F)) : (⟨S850000x1, .i32⟩ : BufTy).Contents (Elt F) :=
  broadcastInDim S850000x1 ![0] bcast_S850000_S850000x1_0 (val_main_v67 (F := F) x1)

def val_main_v69 (x1 : (⟨S2x800000, .i32⟩ : BufTy).Contents (Elt F)) : (⟨S850000, .f32⟩ : BufTy).Contents (Elt F) :=
  Host.gather gather_S50000_S850000x1_S850000_n_0_n_n_0_1_1 (val_main_v62 (F := F) x1) (val_main_v68 (F := F) x1)

def val_main_c_15 : (⟨S_, .i32⟩ : BufTy).Contents (Elt F) :=
  constantI S_ 32 0#32

def val_main_v70 : (⟨S850000, .i32⟩ : BufTy).Contents (Elt F) :=
  broadcastInDim S850000 ![] bcast_S_S850000 (val_main_c_15 (F := F))

def val_main_v71 (x1 : (⟨S2x800000, .i32⟩ : BufTy).Contents (Elt F)) : (⟨S850000, .i1⟩ : BufTy).Contents (Elt F) :=
  cmpi .slt (val_main_v54 (F := F) x1) (val_main_v70 (F := F))

def val_main_c_16 : (⟨S_, .i32⟩ : BufTy).Contents (Elt F) :=
  constantI S_ 32 50000#32

def val_main_v72 : (⟨S850000, .i32⟩ : BufTy).Contents (Elt F) :=
  broadcastInDim S850000 ![] bcast_S_S850000 (val_main_c_16 (F := F))

def val_main_v73 (x1 : (⟨S2x800000, .i32⟩ : BufTy).Contents (Elt F)) : (⟨S850000, .i32⟩ : BufTy).Contents (Elt F) :=
  addi (val_main_v54 (F := F) x1) (val_main_v72 (F := F))

def val_main_v74 (x1 : (⟨S2x800000, .i32⟩ : BufTy).Contents (Elt F)) : (⟨S850000, .i32⟩ : BufTy).Contents (Elt F) :=
  select (val_main_v71 (F := F) x1) (val_main_v73 (F := F) x1) (val_main_v54 (F := F) x1)

def val_main_v75 (x1 : (⟨S2x800000, .i32⟩ : BufTy).Contents (Elt F)) : (⟨S850000x1, .i32⟩ : BufTy).Contents (Elt F) :=
  broadcastInDim S850000x1 ![0] bcast_S850000_S850000x1_0 (val_main_v74 (F := F) x1)

def val_main_v76 (x1 : (⟨S2x800000, .i32⟩ : BufTy).Contents (Elt F)) : (⟨S850000, .f32⟩ : BufTy).Contents (Elt F) :=
  Host.gather gather_S50000_S850000x1_S850000_n_0_n_n_0_1_1 (val_main_v62 (F := F) x1) (val_main_v75 (F := F) x1)

def val_main_v77 (x1 : (⟨S2x800000, .i32⟩ : BufTy).Contents (Elt F)) : (⟨S850000, .f32⟩ : BufTy).Contents (Elt F) :=
  mulf (val_main_v69 (F := F) x1) (val_main_v76 (F := F) x1)

def val_main_v78 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) : (⟨S50000x64, .f32⟩ : BufTy).Contents (Elt F) :=
  Host.dotGeneral dot_S50000x64_S64x64_S50000x64_1_0_0_1_n_n none (val_main_v47 (F := F) x0 x1 x3 x4) (x5)

theorem lhs_main_v78_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v78_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v78_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v78_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

abbrev lidx_main_v78 (i : S50000x64.Idx) (k : Fin 64) : S50000x64.Idx := fun a => match a with
  | ⟨0, _⟩ => ⟨(i 0).val, (i 0).isLt⟩
  | ⟨1, _⟩ => ⟨k.val, k.isLt⟩

abbrev ridx_main_v78 (i : S50000x64.Idx) (k : Fin 64) : S64x64.Idx := fun a => match a with
  | ⟨0, _⟩ => ⟨k.val, k.isLt⟩
  | ⟨1, _⟩ => ⟨(i 1).val, (i 1).isLt⟩

theorem val_main_v78_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (i : S50000x64.Idx) :
    val_main_v78 (F := Ideal) x0 x1 x3 x4 x5 i = ∑ k : Fin 64, (val_main_v47 (F := Ideal) x0 x1 x3 x4) (lidx_main_v78 i k) * x5 (ridx_main_v78 i k) := by
  unfold val_main_v78
  generalize val_main_v47 (F := Ideal) x0 x1 x3 x4 = y0
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v78 i k := funext fun a => Fin.ext (by
    match a with
    | ⟨0, _⟩ => exact lhs_main_v78_0 _ _
    | ⟨1, _⟩ => exact (lhs_main_v78_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v78 i k := funext fun a => Fin.ext (by
    match a with
    | ⟨0, _⟩ => exact (rhs_main_v78_0 _ _).trans hk
    | ⟨1, _⟩ => exact rhs_main_v78_1 _ _)
  rw [el, er]

def val_main_c_17 : (⟨S_, .i32⟩ : BufTy).Contents (Elt F) :=
  constantI S_ 32 0#32

def val_main_v79 : (⟨S850000, .i32⟩ : BufTy).Contents (Elt F) :=
  broadcastInDim S850000 ![] bcast_S_S850000 (val_main_c_17 (F := F))

def val_main_v80 (x1 : (⟨S2x800000, .i32⟩ : BufTy).Contents (Elt F)) : (⟨S850000, .i1⟩ : BufTy).Contents (Elt F) :=
  cmpi .slt (val_main_v51 (F := F) x1) (val_main_v79 (F := F))

def val_main_c_18 : (⟨S_, .i32⟩ : BufTy).Contents (Elt F) :=
  constantI S_ 32 50000#32

def val_main_v81 : (⟨S850000, .i32⟩ : BufTy).Contents (Elt F) :=
  broadcastInDim S850000 ![] bcast_S_S850000 (val_main_c_18 (F := F))

def val_main_v82 (x1 : (⟨S2x800000, .i32⟩ : BufTy).Contents (Elt F)) : (⟨S850000, .i32⟩ : BufTy).Contents (Elt F) :=
  addi (val_main_v51 (F := F) x1) (val_main_v81 (F := F))

def val_main_v83 (x1 : (⟨S2x800000, .i32⟩ : BufTy).Contents (Elt F)) : (⟨S850000, .i32⟩ : BufTy).Contents (Elt F) :=
  select (val_main_v80 (F := F) x1) (val_main_v82 (F := F) x1) (val_main_v51 (F := F) x1)

def val_main_v84 (x1 : (⟨S2x800000, .i32⟩ : BufTy).Contents (Elt F)) : (⟨S850000x1, .i32⟩ : BufTy).Contents (Elt F) :=
  broadcastInDim S850000x1 ![0] bcast_S850000_S850000x1_0 (val_main_v83 (F := F) x1)

def val_main_v85 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) : (⟨S850000x64, .f32⟩ : BufTy).Contents (Elt F) :=
  Host.gather gather_S50000x64_S850000x1_S850000x64_1_0_n_n_0_1_164 (val_main_v78 (F := F) x0 x1 x3 x4 x5) (val_main_v84 (F := F) x1)

def val_main_v86 (x1 : (⟨S2x800000, .i32⟩ : BufTy).Contents (Elt F)) : (⟨S850000x1, .f32⟩ : BufTy).Contents (Elt F) :=
  broadcastInDim S850000x1 ![0] bcast_S850000_S850000x1_0 (val_main_v77 (F := F) x1)

def val_main_v87 (x1 : (⟨S2x800000, .i32⟩ : BufTy).Contents (Elt F)) : (⟨S850000x64, .f32⟩ : BufTy).Contents (Elt F) :=
  broadcastInDim S850000x64 ![0, 1] bcast_S850000x1_S850000x64_0_1 (val_main_v86 (F := F) x1)

def val_main_v88 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) : (⟨S850000x64, .f32⟩ : BufTy).Contents (Elt F) :=
  mulf (val_main_v85 (F := F) x0 x1 x3 x4 x5) (val_main_v87 (F := F) x1)

def val_main_cst_19 : (⟨S_, .f32⟩ : BufTy).Contents (Elt F) :=
  constant S_ .f32 0x00000000#32

def val_main_v89 : (⟨S50000x64, .f32⟩ : BufTy).Contents (Elt F) :=
  broadcastInDim S50000x64 ![] bcast_S_S50000x64 (val_main_cst_19 (F := F))

def val_main_v90 (x1 : (⟨S2x800000, .i32⟩ : BufTy).Contents (Elt F)) : (⟨S850000x1, .i32⟩ : BufTy).Contents (Elt F) :=
  broadcastInDim S850000x1 ![0] bcast_S850000_S850000x1_0 (val_main_v54 (F := F) x1)

def val_main_v91 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) : (⟨S50000x64, .f32⟩ : BufTy).Contents (Elt F) :=
  Host.scatterAdd scatter_S50000x64_S850000x1_S850000x64_1_0_0_1 (val_main_v89 (F := F)) (val_main_v90 (F := F) x1) (val_main_v88 (F := F) x0 x1 x3 x4 x5)

def val_main_v92 (x6 : (⟨S64, .f32⟩ : BufTy).Contents (Elt F)) : (⟨S1x64, .f32⟩ : BufTy).Contents (Elt F) :=
  broadcastInDim S1x64 ![1] bcast_S64_S1x64_1 (x6)

def val_main_v93 (x6 : (⟨S64, .f32⟩ : BufTy).Contents (Elt F)) : (⟨S50000x64, .f32⟩ : BufTy).Contents (Elt F) :=
  broadcastInDim S50000x64 ![0, 1] bcast_S1x64_S50000x64_0_1 (val_main_v92 (F := F) x6)

def val_main_v94 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S50000x64, .f32⟩ : BufTy).Contents (Elt F) :=
  addf (val_main_v91 (F := F) x0 x1 x3 x4 x5) (val_main_v93 (F := F) x6)

def val_main_call3_cst : (⟨S_, .f32⟩ : BufTy).Contents (Elt F) :=
  constant S_ .f32 0x00000000#32

def val_main_call3_v0 : (⟨S50000x64, .f32⟩ : BufTy).Contents (Elt F) :=
  broadcastInDim S50000x64 ![] bcast_S_S50000x64 (val_main_call3_cst (F := F))

def val_main_v95 (x0 : (⟨S50000x128, .f32⟩ : BufTy).Contents (Elt F)) (x1 : (⟨S2x800000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S50000x64, .f32⟩ : BufTy).Contents (Elt F) :=
  maximumf (val_main_v94 (F := F) x0 x1 x3 x4 x5 x6) (val_main_call3_v0 (F := F))

def val_main_cst_20 : (⟨S_, .f32⟩ : BufTy).Contents (Elt F) :=
  constant S_ .f32 0x00000000#32

theorem val_main_cst_20_apply (i : S_.Idx) :
    val_main_cst_20 (F := F) i = FloatOps.ofBits .f32 0x00000000#32 := rfl

def val_main_v96 : (⟨S512x64, .f32⟩ : BufTy).Contents (Elt F) :=
  broadcastInDim S512x64 ![] bcast_S_S512x64 (val_main_cst_20 (F := F))

abbrev idx_main_v96 (i : S512x64.Idx) : S_.Idx := fun a => a.elim0

theorem val_main_v96_apply (i : S512x64.Idx) :
    val_main_v96 (F := F) i = val_main_cst_20 (F := F) (idx_main_v96 i) := by
  unfold val_main_v96
  generalize val_main_cst_20 (F := F) = y
  exact broadcastInDim_apply _ bcast_S_S512x64 y i (idx_main_v96 i) (fun a => a.elim0)

def val_main_v97 (x2 : (⟨S50000, .i32⟩ : BufTy).Contents (Elt F)) : (⟨S50000x1, .i32⟩ : BufTy).Contents (Elt F) :=
  broadcastInDim S50000x1 ![0] bcast_S50000_S50000x1_0 (x2)

abbrev idx_main_v97 (i : S50000x1.Idx) : S50000.Idx := fun a => match a with
  | ⟨0, _⟩ => ⟨(i 0).val, (i 0).isLt⟩

theorem val_main_v97_apply (x2 : (⟨S50000, .i32⟩ : BufTy).Contents (Elt F)) (i : S50000x1.Idx) :
    val_main_v97 (F := F) x2 i = x2 (idx_main_v97 i) := by
  unfold val_main_v97
  exact broadcastInDim_apply _ bcast_S50000_S50000x1_0 x2 i (idx_main_v97 i) (fun a => match a with
    | ⟨0, _⟩ => by show (i 0).val = if (50000 : Nat) = 1 then 0 else (i 0).val; rw [if_neg (by decide)])

def val_main_v98 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S512x64, .f32⟩ : BufTy).Contents (Elt F) :=
  Host.scatterAdd scatter_S512x64_S50000x1_S50000x64_1_0_0_1 (val_main_v96 (F := F)) (val_main_v97 (F := F) x2) (val_main_v95 (F := F) x0 x1 x3 x4 x5 x6)

def val_main_cst_21 : (⟨S_, .f32⟩ : BufTy).Contents (Elt F) :=
  constant S_ .f32 0x3F800000#32

theorem val_main_cst_21_apply (i : S_.Idx) :
    val_main_cst_21 (F := F) i = FloatOps.ofBits .f32 0x3F800000#32 := rfl

def val_main_v99 : (⟨S50000, .f32⟩ : BufTy).Contents (Elt F) :=
  broadcastInDim S50000 ![] bcast_S_S50000 (val_main_cst_21 (F := F))

abbrev idx_main_v99 (i : S50000.Idx) : S_.Idx := fun a => a.elim0

theorem val_main_v99_apply (i : S50000.Idx) :
    val_main_v99 (F := F) i = val_main_cst_21 (F := F) (idx_main_v99 i) := by
  unfold val_main_v99
  generalize val_main_cst_21 (F := F) = y
  exact broadcastInDim_apply _ bcast_S_S50000 y i (idx_main_v99 i) (fun a => a.elim0)

def val_main_cst_22 : (⟨S_, .f32⟩ : BufTy).Contents (Elt F) :=
  constant S_ .f32 0x00000000#32

theorem val_main_cst_22_apply (i : S_.Idx) :
    val_main_cst_22 (F := F) i = FloatOps.ofBits .f32 0x00000000#32 := rfl

def val_main_v100 : (⟨S512, .f32⟩ : BufTy).Contents (Elt F) :=
  broadcastInDim S512 ![] bcast_S_S512 (val_main_cst_22 (F := F))

abbrev idx_main_v100 (i : S512.Idx) : S_.Idx := fun a => a.elim0

theorem val_main_v100_apply (i : S512.Idx) :
    val_main_v100 (F := F) i = val_main_cst_22 (F := F) (idx_main_v100 i) := by
  unfold val_main_v100
  generalize val_main_cst_22 (F := F) = y
  exact broadcastInDim_apply _ bcast_S_S512 y i (idx_main_v100 i) (fun a => a.elim0)

def val_main_v101 (x2 : (⟨S50000, .i32⟩ : BufTy).Contents (Elt F)) : (⟨S50000x1, .i32⟩ : BufTy).Contents (Elt F) :=
  broadcastInDim S50000x1 ![0] bcast_S50000_S50000x1_0 (x2)

def val_main_v102 (x2 : (⟨S50000, .i32⟩ : BufTy).Contents (Elt F)) : (⟨S512, .f32⟩ : BufTy).Contents (Elt F) :=
  Host.scatterAdd scatter_S512_S50000x1_S50000_n_0_0_1 (val_main_v100 (F := F)) (val_main_v101 (F := F) x2) (val_main_v99 (F := F))

def val_main_cst_23 : (⟨S_, .f32⟩ : BufTy).Contents (Elt F) :=
  constant S_ .f32 0x3F800000#32

theorem val_main_cst_23_apply (i : S_.Idx) :
    val_main_cst_23 (F := F) i = FloatOps.ofBits .f32 0x3F800000#32 := rfl

def val_main_v103 : (⟨S512, .f32⟩ : BufTy).Contents (Elt F) :=
  broadcastInDim S512 ![] bcast_S_S512 (val_main_cst_23 (F := F))

abbrev idx_main_v103 (i : S512.Idx) : S_.Idx := fun a => a.elim0

theorem val_main_v103_apply (i : S512.Idx) :
    val_main_v103 (F := F) i = val_main_cst_23 (F := F) (idx_main_v103 i) := by
  unfold val_main_v103
  generalize val_main_cst_23 (F := F) = y
  exact broadcastInDim_apply _ bcast_S_S512 y i (idx_main_v103 i) (fun a => a.elim0)

def val_main_v104 (x2 : (⟨S50000, .i32⟩ : BufTy).Contents (Elt F)) : (⟨S512, .f32⟩ : BufTy).Contents (Elt F) :=
  maximumf (val_main_v102 (F := F) x2) (val_main_v103 (F := F))

theorem val_main_v104_apply (x2 : (⟨S50000, .i32⟩ : BufTy).Contents (Elt F)) (i : S512.Idx) :
    val_main_v104 (F := F) x2 i = FloatOps.maximumf (val_main_v102 (F := F) x2 i) (val_main_v103 (F := F) i) := rfl

def val_main_v105 (x2 : (⟨S50000, .i32⟩ : BufTy).Contents (Elt F)) : (⟨S512x1, .f32⟩ : BufTy).Contents (Elt F) :=
  broadcastInDim S512x1 ![0] bcast_S512_S512x1_0 (val_main_v104 (F := F) x2)

abbrev idx_main_v105 (i : S512x1.Idx) : S512.Idx := fun a => match a with
  | ⟨0, _⟩ => ⟨(i 0).val, (i 0).isLt⟩

theorem val_main_v105_apply (x2 : (⟨S50000, .i32⟩ : BufTy).Contents (Elt F)) (i : S512x1.Idx) :
    val_main_v105 (F := F) x2 i = val_main_v104 (F := F) x2 (idx_main_v105 i) := by
  unfold val_main_v105
  generalize val_main_v104 (F := F) x2 = y
  exact broadcastInDim_apply _ bcast_S512_S512x1_0 y i (idx_main_v105 i) (fun a => match a with
    | ⟨0, _⟩ => by show (i 0).val = if (512 : Nat) = 1 then 0 else (i 0).val; rw [if_neg (by decide)])

def val_main_v106 (x2 : (⟨S50000, .i32⟩ : BufTy).Contents (Elt F)) : (⟨S512x64, .f32⟩ : BufTy).Contents (Elt F) :=
  broadcastInDim S512x64 ![0, 1] bcast_S512x1_S512x64_0_1 (val_main_v105 (F := F) x2)

abbrev idx_main_v106 (i : S512x64.Idx) : S512x1.Idx := fun a => match a with
  | ⟨0, _⟩ => ⟨(i 0).val, (i 0).isLt⟩
  | ⟨1, _⟩ => ⟨0, Nat.one_pos⟩

theorem val_main_v106_apply (x2 : (⟨S50000, .i32⟩ : BufTy).Contents (Elt F)) (i : S512x64.Idx) :
    val_main_v106 (F := F) x2 i = val_main_v105 (F := F) x2 (idx_main_v106 i) := by
  unfold val_main_v106
  generalize val_main_v105 (F := F) x2 = y
  exact broadcastInDim_apply _ bcast_S512x1_S512x64_0_1 y i (idx_main_v106 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v107 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S512x64, .f32⟩ : BufTy).Contents (Elt F) :=
  Host.divf (val_main_v98 (F := F) x0 x1 x2 x3 x4 x5 x6) (val_main_v106 (F := F) x2)

theorem val_main_v107_apply (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (i : S512x64.Idx) :
    val_main_v107 (F := F) x0 x1 x2 x3 x4 x5 x6 i = FloatOps.hostDivf (val_main_v98 (F := F) x0 x1 x2 x3 x4 x5 x6 i) (val_main_v106 (F := F) x2 i) := rfl

def val_main_v108 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x2, .f32⟩ : BufTy).Contents (Elt F)) : (⟨S512x2, .f32⟩ : BufTy).Contents (Elt F) :=
  Host.dotGeneral dot_S512x64_S64x2_S512x2_1_0_0_1_n_n none (val_main_v107 (F := F) x0 x1 x2 x3 x4 x5 x6) (x7)

theorem lhs_main_v108_0 (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl

theorem lhs_main_v108_1 (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q

theorem rhs_main_v108_0 (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q

theorem rhs_main_v108_1 (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

abbrev lidx_main_v108 (i : S512x2.Idx) (k : Fin 64) : S512x64.Idx := fun a => match a with
  | ⟨0, _⟩ => ⟨(i 0).val, (i 0).isLt⟩
  | ⟨1, _⟩ => ⟨k.val, k.isLt⟩

abbrev ridx_main_v108 (i : S512x2.Idx) (k : Fin 64) : S64x2.Idx := fun a => match a with
  | ⟨0, _⟩ => ⟨k.val, k.isLt⟩
  | ⟨1, _⟩ => ⟨(i 1).val, (i 1).isLt⟩

theorem val_main_v108_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x2, .f32⟩ : BufTy).Contents (Elt Ideal)) (i : S512x2.Idx) :
    val_main_v108 (F := Ideal) x0 x1 x2 x3 x4 x5 x6 x7 i = ∑ k : Fin 64, (val_main_v107 (F := Ideal) x0 x1 x2 x3 x4 x5 x6) (lidx_main_v108 i k) * x7 (ridx_main_v108 i k) := by
  unfold val_main_v108
  generalize val_main_v107 (F := Ideal) x0 x1 x2 x3 x4 x5 x6 = y0
  simp only [Host.dotGeneral]
  rw [Ideal.dotGeneral_apply, ← Equiv.sum_comp (ValueIdx.contrEquiv1 dot_S512x64_S64x2_S512x2_1_0_0_1_n_n 64 rfl rfl).symm]
  refine Finset.sum_congr rfl fun k _ => ?_
  have hk := ValueIdx.contrEquiv1_symm_val dot_S512x64_S64x2_S512x2_1_0_0_1_n_n 64 rfl rfl k
  have el : dot_S512x64_S64x2_S512x2_1_0_0_1_n_n.lhsIdx i ((ValueIdx.contrEquiv1 dot_S512x64_S64x2_S512x2_1_0_0_1_n_n 64 rfl rfl).symm k) = lidx_main_v108 i k := funext fun a => Fin.ext (by
    match a with
    | ⟨0, _⟩ => exact lhs_main_v108_0 _ _
    | ⟨1, _⟩ => exact (lhs_main_v108_1 _ _).trans hk)
  have er : dot_S512x64_S64x2_S512x2_1_0_0_1_n_n.rhsIdx i ((ValueIdx.contrEquiv1 dot_S512x64_S64x2_S512x2_1_0_0_1_n_n 64 rfl rfl).symm k) = ridx_main_v108 i k := funext fun a => Fin.ext (by
    match a with
    | ⟨0, _⟩ => exact (rhs_main_v108_0 _ _).trans hk
    | ⟨1, _⟩ => exact rhs_main_v108_1 _ _)
  rw [el, er]

def val_main_v109 (x8 : (⟨S2, .f32⟩ : BufTy).Contents (Elt F)) : (⟨S1x2, .f32⟩ : BufTy).Contents (Elt F) :=
  broadcastInDim S1x2 ![1] bcast_S2_S1x2_1 (x8)

abbrev idx_main_v109 (i : S1x2.Idx) : S2.Idx := fun a => match a with
  | ⟨0, _⟩ => ⟨(i 1).val, (i 1).isLt⟩

theorem val_main_v109_apply (x8 : (⟨S2, .f32⟩ : BufTy).Contents (Elt F)) (i : S1x2.Idx) :
    val_main_v109 (F := F) x8 i = x8 (idx_main_v109 i) := by
  unfold val_main_v109
  exact broadcastInDim_apply _ bcast_S2_S1x2_1 x8 i (idx_main_v109 i) (fun a => match a with
    | ⟨0, _⟩ => by show (i 1).val = if (2 : Nat) = 1 then 0 else (i 1).val; rw [if_neg (by decide)])

def val_main_v110 (x8 : (⟨S2, .f32⟩ : BufTy).Contents (Elt F)) : (⟨S512x2, .f32⟩ : BufTy).Contents (Elt F) :=
  broadcastInDim S512x2 ![0, 1] bcast_S1x2_S512x2_0_1 (val_main_v109 (F := F) x8)

abbrev idx_main_v110 (i : S512x2.Idx) : S1x2.Idx := fun a => match a with
  | ⟨0, _⟩ => ⟨0, Nat.one_pos⟩
  | ⟨1, _⟩ => ⟨(i 1).val, (i 1).isLt⟩

theorem val_main_v110_apply (x8 : (⟨S2, .f32⟩ : BufTy).Contents (Elt F)) (i : S512x2.Idx) :
    val_main_v110 (F := F) x8 i = val_main_v109 (F := F) x8 (idx_main_v110 i) := by
  unfold val_main_v110
  generalize val_main_v109 (F := F) x8 = y
  exact broadcastInDim_apply _ bcast_S1x2_S512x2_0_1 y i (idx_main_v110 i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

def val_main_v111 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x2, .f32⟩ : BufTy).Contents (Elt F)) (x8 : (⟨S2, .f32⟩ : BufTy).Contents (Elt F)) : (⟨S512x2, .f32⟩ : BufTy).Contents (Elt F) :=
  addf (val_main_v108 (F := F) x0 x1 x2 x3 x4 x5 x6 x7) (val_main_v110 (F := F) x8)

theorem val_main_v111_eq (m : (ℓ : Loc nD τ sig) → Buf (Elt F) ℓ) (c : Dev nD) :
    Cert.ReferenceIdeal.ValueP.res_main_v111 m c = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v111; rfl

end Cert.ReferenceIdeal.ReadP

end
-- ==== Proof.RefImports.lean ====
import proofs.«414462_j27805618274378_3_alg».proof.Proof.RefRun
import proofs.«414462_j27805618274378_3_alg».proof.Proof.RefRead
-- ==== Proof.LibIds.lean ====
import proofs.«414462_j27805618274378_3_alg».proof.Proof.Spec
import proofs.«414462_j27805618274378_3_alg».proof.Proof.Views
import proofs.«414462_j27805618274378_3_alg».proof.Proof.LibGatherScatter
import Idealize.ShloMosaic.Lib.Pipeline.Value
import Idealize.ShloMosaic.Lib.ValueIdx
import Idealize.ShloMosaic.Lib.StableHlo.Predicate

noncomputable section

namespace IdReads

open Idealize.ShloMosaic Idealize.ShloMosaic.ValueIdx

theorem wrap_word (n : ℕ) (v : BitVec 32) :
    Scalar.select (IntOp.cmpi .slt v 0#32) (IntOp.addi v (BitVec.ofNat 32 n)) v = GcnSpec.wrapId n v := by
  unfold GcnSpec.wrapId
  show Scalar.select (BitVec.ofBool (v.slt 0#32)) _ _ = _
  cases v.slt 0#32 <;> rfl

theorem select_wrap_apply {s : Shape} (n : ℕ) (V Z B : IVec s 32) (i : s.Idx) (hz : Z i = 0#32)
    (hb : B i = BitVec.ofNat 32 n) :
    select (cmpi .slt V Z) (addi V B) V i = GcnSpec.wrapId n (V i) := by
  show Scalar.select (IntOp.cmpi .slt (V i) (Z i)) (IntOp.addi (V i) (B i)) (V i) = _
  rw [hz, hb, wrap_word]

theorem gather_rows_readRow {α : Type} {n e k : ℕ} (hn : 0 < n) (d : GatherDims ⟨2, ![n, k]⟩ ⟨2, ![e, 1]⟩ ⟨2, ![e, k]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, k])
    (x : (⟨2, ![n, k]⟩ : Shape).Idx → α) (idx : IVec ⟨2, ![e, 1]⟩ 32) (r : Fin e) (j : Fin k) (v : BitVec 32)
    (hidx : idx (ix2 r (0 : Fin 1)) = GcnSpec.wrapId n v) :
    Host.gather d x idx (ix2 r j) = x (ix2 (GcnSpec.readRow n hn v) j) := by
  rw [GatherScatter.gather_rows_apply hn d hod hcs hob hsb hsm hiv hss]
  simp only [hidx]
  rfl

theorem gather_take_readRow {α : Type} {n e : ℕ} (hn : 0 < n) (d : GatherDims ⟨1, ![n]⟩ ⟨2, ![e, 1]⟩ ⟨1, ![e]⟩)
    (hcs : d.collapsedSliceDims = [0]) (hob : d.operandBatchingDims = []) (hsm : d.startIndexMap = [0])
    (hiv : d.indexVectorDim = 1)
    (x : (⟨1, ![n]⟩ : Shape).Idx → α) (idx : IVec ⟨2, ![e, 1]⟩ 32) (r : Fin e) (v : BitVec 32)
    (hidx : idx (ix2 r (0 : Fin 1)) = GcnSpec.wrapId n v) :
    Host.gather d x idx (ix1 r) = x (ix1 (GcnSpec.readRow n hn v)) := by
  have h1 : (ix1 r : (⟨1, ![e]⟩ : Shape).Idx) = Shape.Idx.ofFin r := Shape.Idx.eq_ofFin (ix1 r)
  have hP : StableHlo.Predicate.ixP r = ix2 r (0 : Fin 1) := by
    funext b
    match b with
    | ⟨0, _⟩ => rfl
    | ⟨1, _⟩ => rfl
  rw [h1, StableHlo.Predicate.gather_take d hcs hob hsm hiv x idx r hn]
  simp only [hP, hidx]
  exact congrArg x (Shape.Idx.eq_ofFin (ix1 _)).symm

theorem concat_iota_apply {e n t : ℕ} (ht : t = e + n) (a : IVec ⟨1, ![e]⟩ 32)
    (h : Shape.Concatenates [(⟨1, ![e]⟩ : Shape), ⟨1, ![n]⟩] ⟨1, ![t]⟩ 0) (q : Fin t) :
    concatenate ⟨1, ![t]⟩ 0 [⟨⟨1, ![e]⟩, a⟩, ⟨⟨1, ![n]⟩, iotaInDim ⟨1, ![n]⟩ 32 0⟩] h (ix1 q)
      = GcnSpec.withLoops (N := n) (GcnSpec.vec a) (Fin.cast ht q) := by
  unfold GcnSpec.withLoops
  split
  · rename_i hq
    exact concatenate_pair_apply_left (t := ⟨1, ![t]⟩) 0 a _ h (ix1 q) rfl (ix1 ⟨q.val, hq⟩)
      (fun b' => by match b' with | ⟨0, _⟩ => rfl)
  · rename_i hq
    have hq' : ¬ q.val < e := hq
    have hlt : q.val - e < n := by have := q.isLt; omega
    exact concatenate_pair_apply_right (t := ⟨1, ![t]⟩) 0 a _ h (ix1 q) rfl rfl (ix1 ⟨q.val - e, hlt⟩)
      (fun b' hne => absurd (Subsingleton.elim _ _) hne) (by show (q.val - e) + e = q.val; omega)

theorem where_rsqrt_word (zero d : EReal) :
    Scalar.select (FloatOps.cmpf (F := Ideal) (φ := .f32) .ogt d zero) (FloatOps.hostUnary (F := Ideal) (φ := .f32) .rsqrt d) zero
      = if zero < d then Ideal.rsqrt d else zero := by
  show Scalar.select (Ideal.cmp .ogt d zero) (Ideal.rsqrt d) zero = _
  unfold Ideal.cmp Scalar.select
  by_cases h : zero < d <;> simp [h]

end IdReads
-- ==== Proof.RefLayer1.lean ====
import proofs.«414462_j27805618274378_3_alg».proof.Proof.RefImports
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibIds

noncomputable section

open scoped BigOperators

namespace Cert.ReferenceIdeal.RefValue

open Cert.ReferenceIdeal Cert.ReferenceIdeal.Gen Cert.ReferenceIdeal.ReadP Idealize.ShloMosaic Idealize.ShloMosaic.StableHlo
  Idealize.ShloMosaic.ValueIdx GcnSpec

variable (x0 : (⟨S50000x128, .f32⟩ : BufTy).Contents (Elt Ideal)) (x1 : (⟨S2x800000, .i32⟩ : BufTy).Contents (Elt Ideal))
  (x3 : (⟨S128x64, .f32⟩ : BufTy).Contents (Elt Ideal)) (x4 : (⟨S64, .f32⟩ : BufTy).Contents (Elt Ideal))

namespace Layer1

abbrev ends (t : Fin 2) : Ids (800000 + 50000) := withLoops (N := 50000) (rowOf x1 t)

abbrev row (t : Fin 2) (e : Fin 850000) : Fin 50000 := readRow 50000 (by decide) (ends x1 t e)

abbrev dinv : Col 50000 := rDinv zeroW (rDeg oneW zeroW (ends x1 1))

abbrev wrapped (V : IVec S850000 32) : IVec S850000x1 32 :=
  broadcastInDim S850000x1 ![0] bcast_S850000_S850000x1_0
    (select (cmpi .slt V (val_main_v15 (F := Ideal))) (addi V (val_main_v17 (F := Ideal))) V)

theorem row_idx (q : S2x800000.Idx) (t : Fin 2) (k : Fin 800000) (h0 : q 0 = t) (h1 : (q 1).val = k.val % 800000) :
    q = ix2 t k :=
  (eq_ix2 q).trans (congrArg₂ ix2 h0 (Fin.ext (h1.trans (Nat.mod_eq_of_lt k.isLt))))

theorem ends_at (a : IVec S800000 32) (t : Fin 2) (ha : ∀ k : Fin 800000, a (ix1 k) = x1 (ix2 t k)) (e : Fin 850000) :
    concatenate S850000 0 [⟨S800000, a⟩, ⟨S50000, val_main_v0 (F := Ideal)⟩] concatenates_S800000_S50000_S850000_d0 (ix1 e)
      = ends x1 t e :=
  (IdReads.concat_iota_apply (t := 850000) rfl a _ e).trans (congrArg (fun f => withLoops (N := 50000) f e) (funext ha))

theorem sources_at (e : Fin 850000) : val_main_v3 (F := Ideal) x1 (ix1 e) = ends x1 0 e :=
  ends_at x1 _ 0 (fun k => by rw [val_main_v2_apply, val_main_v1_apply]; exact congrArg x1 (row_idx _ 0 k rfl rfl)) e

theorem targets_at (e : Fin 850000) : val_main_v6 (F := Ideal) x1 (ix1 e) = ends x1 1 e :=
  ends_at x1 _ 1 (fun k => by rw [val_main_v5_apply, val_main_v4_apply]; exact congrArg x1 (row_idx _ 1 k rfl rfl)) e

theorem landing_at (e : Fin 850000) : val_main_v9 (F := Ideal) x1 (ix2 e (0 : Fin 1)) = ends x1 1 e :=
  (val_main_v9_apply x1 _).trans ((congrArg _ (eq_ix1 _)).trans (targets_at x1 e))

theorem degree_at (i : Fin 50000) : val_main_v10 (F := Ideal) x1 (ix1 i) = rDeg oneW zeroW (ends x1 1) i := by
  unfold val_main_v10
  rw [GatherScatter.scatterAdd_vec_apply _ rfl rfl rfl rfl, val_main_v8_apply, val_main_cst_0_apply]
  refine congrArg (zeroW + ·) (Finset.sum_congr (Finset.filter_congr fun e _ => ?_) fun e _ => ?_)
  · rw [landing_at]
  · rw [val_main_v7_apply, val_main_cst_apply]
    rfl

theorem factor_at (i : Fin 50000) : val_main_v14 (F := Ideal) x1 (ix1 i) = dinv x1 i := by
  rw [val_main_v14_apply, val_main_v12_apply, val_main_v13_apply, val_main_call0_v1_apply, val_main_call0_v0_apply,
    val_main_cst_2_apply, val_main_v11_apply, val_main_cst_1_apply, degree_at]
  exact IdReads.where_rsqrt_word _ _

theorem wrapped_at (V : IVec S850000 32) (t : Fin 2) (hV : ∀ e, V (ix1 e) = ends x1 t e) (e : Fin 850000) :
    wrapped V (ix2 e (0 : Fin 1)) = wrapId 50000 (ends x1 t e) := by
  rw [← hV]
  exact (broadcastInDim_apply _ _ _ _ (ix1 e) fun a => by match a with | ⟨0, _⟩ => exact (if_neg (by decide : ¬(850000 : ℕ) = 1)).symm).trans
    (IdReads.select_wrap_apply 50000 V _ _ _ ((val_main_v15_apply _).trans (val_main_c_apply _))
      ((val_main_v17_apply _).trans (val_main_c_3_apply _)))

theorem endFactor_at (V : IVec S850000 32) (t : Fin 2) (hV : ∀ e, V (ix1 e) = ends x1 t e) (e : Fin 850000) :
    Host.gather gather_S50000_S850000x1_S850000_n_0_n_n_0_1_1 (val_main_v14 (F := Ideal) x1) (wrapped V) (ix1 e)
      = dinv x1 (row x1 t e) :=
  (IdReads.gather_take_readRow (by decide) _ rfl rfl rfl rfl _ _ e _ (wrapped_at x1 V t hV e)).trans (factor_at x1 _)

theorem edgeFactor_at (e : Fin 850000) :
    val_main_v29 (F := Ideal) x1 (ix1 e) = dinv x1 (row x1 0 e) * dinv x1 (row x1 1 e) :=
  (mulf_apply _ _ _).trans
    (congrArg₂ (· * ·) (endFactor_at x1 _ 0 (sources_at x1) e) (endFactor_at x1 _ 1 (targets_at x1) e))

theorem layer_at {K : ℕ} (Y : FVec Ideal S50000x64 .f32) (X : Mat 50000 K) (W : Mat K 64) (b : FVec Ideal S64 .f32)
    (hY : ∀ r j, Y (ix2 r j) = ∑ c : Fin K, X r c * W c j) (r : Fin 50000) (j : Fin 64) :
    maximumf (addf (Host.scatterAdd scatter_S50000x64_S850000x1_S850000x64_1_0_0_1 (val_main_v41 (F := Ideal))
          (val_main_v9 (F := Ideal) x1)
          (mulf (Host.gather gather_S50000x64_S850000x1_S850000x64_1_0_n_n_0_1_164 Y (wrapped (val_main_v3 (F := Ideal) x1)))
            (val_main_v39 (F := Ideal) x1)))
        (val_main_v45 (F := Ideal) b)) (val_main_call1_v0 (F := Ideal)) (ix2 r j)
      = rLayer (N := 50000) (by decide) oneW zeroW (ends x1 0) (ends x1 1) X W (vec b) r j := by
  rw [maximumf_apply, addf_apply, GatherScatter.scatterAdd_rows_apply _ rfl rfl rfl rfl, val_main_v41_apply,
    val_main_cst_8_apply, val_main_call1_v0_apply, val_main_call1_cst_apply, val_main_v45_apply, val_main_v44_apply]
  refine congrArg₂ max (congrArg₂ (· + ·) (congrArg (zeroW + ·)
    (Finset.sum_congr (Finset.filter_congr fun e _ => ?_) fun e _ => ?_)) (congrArg b (eq_ix1 _))) rfl
  · rw [landing_at]
  · exact (mulf_apply _ _ _).trans (congrArg₂ (· * ·)
      ((IdReads.gather_rows_readRow (by decide) _ rfl rfl rfl rfl rfl rfl rfl Y _ e j _
        (wrapped_at x1 _ 0 (sources_at x1) e)).trans (hY _ _))
      ((val_main_v39_apply x1 _).trans ((val_main_v38_apply x1 _).trans
        ((congrArg _ (eq_ix1 _)).trans (edgeFactor_at x1 e)))))

theorem transformed_at (r : Fin 50000) (j : Fin 64) :
    val_main_v30 (F := Ideal) x0 x3 (ix2 r j) = ∑ c : Fin 128, mat x0 r c * mat x3 c j :=
  (val_main_v30_apply x0 x3 _).trans
    (Finset.sum_congr rfl fun c _ => congrArg₂ (· * ·) (congrArg x0 (eq_ix2 _)) (congrArg x3 (eq_ix2 _)))

end Layer1

theorem ref_layer1 (r : Fin 50000) (j : Fin 64) :
    val_main_v47 (F := Ideal) x0 x1 x3 x4 (ix2 r j)
      = rLayer (N := 50000) (by decide) oneW zeroW (withLoops (N := 50000) (rowOf x1 0))
          (withLoops (N := 50000) (rowOf x1 1)) (mat x0) (mat x3) (vec x4) r j :=
  Layer1.layer_at x1 _ _ _ x4 (Layer1.transformed_at x0 x3) r j

end Cert.ReferenceIdeal.RefValue

end
-- ==== Proof.RefLayer2.lean ====
import proofs.«414462_j27805618274378_3_alg».proof.Proof.RefImports
import proofs.«414462_j27805618274378_3_alg».proof.Proof.Spec
import proofs.«414462_j27805618274378_3_alg».proof.Proof.Consts
import proofs.«414462_j27805618274378_3_alg».proof.Proof.Views
import proofs.«414462_j27805618274378_3_alg».proof.Proof.RefLayer1

noncomputable section

open scoped BigOperators

namespace Cert.ReferenceIdeal.RefValue

open Cert.ReferenceIdeal Cert.ReferenceIdeal.Gen Cert.ReferenceIdeal.ReadP Idealize.ShloMosaic Idealize.ShloMosaic.StableHlo
  Idealize.ShloMosaic.ValueIdx GcnSpec

variable (x0 : (⟨S50000x128, .f32⟩ : BufTy).Contents (Elt Ideal)) (x1 : (⟨S2x800000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

theorem Layer2.transformed_at (r : Fin 50000) (j : Fin 64) :
    val_main_v78 (F := Ideal) x0 x1 x3 x4 x5 (ix2 r j)
      = ∑ c : Fin 64, mat (val_main_v47 (F := Ideal) x0 x1 x3 x4) r c * mat x5 c j :=
  (val_main_v78_apply x0 x1 x3 x4 x5 _).trans
    (Finset.sum_congr rfl fun c _ => congrArg₂ (· * ·) (congrArg _ (eq_ix2 _)) (congrArg x5 (eq_ix2 _)))

theorem ref_layer2 (r : Fin 50000) (j : Fin 64) :
    val_main_v95 (F := Ideal) x0 x1 x3 x4 x5 x6 (ix2 r j)
      = rLayer (N := 50000) (by decide) oneW zeroW (withLoops (N := 50000) (rowOf x1 0))
          (withLoops (N := 50000) (rowOf x1 1)) (mat (val_main_v47 (F := Ideal) x0 x1 x3 x4)) (mat x5) (vec x6) r j :=
  Layer1.layer_at x1 _ _ _ x6 (Layer2.transformed_at x0 x1 x3 x4 x5) r j

end Cert.ReferenceIdeal.RefValue

end
-- ==== Proof.RefPool.lean ====
import proofs.«414462_j27805618274378_3_alg».proof.Proof.RefImports
import proofs.«414462_j27805618274378_3_alg».proof.Proof.Spec
import proofs.«414462_j27805618274378_3_alg».proof.Proof.Consts
import proofs.«414462_j27805618274378_3_alg».proof.Proof.Views
import proofs.«414462_j27805618274378_3_alg».proof.Proof.LibGatherScatter

noncomputable section

open scoped BigOperators

namespace Cert.ReferenceIdeal.RefValue

open Cert.ReferenceIdeal Cert.ReferenceIdeal.Gen Cert.ReferenceIdeal.ReadP Idealize.ShloMosaic Idealize.ShloMosaic.ValueIdx GcnSpec

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x2, .f32⟩ : BufTy).Contents (Elt Ideal))
  (x8 : (⟨S2, .f32⟩ : BufTy).Contents (Elt Ideal))

theorem batch_at (r : Fin 50000) : val_main_v97 (F := Ideal) x2 (ix2 r (0 : Fin 1)) = x2 (ix1 r) :=
  (val_main_v97_apply x2 _).trans (congrArg x2 (eq_ix1 _))

theorem pooledSum_apply (g : Fin 512) (k : Fin 64) :
    val_main_v98 (F := Ideal) x0 x1 x2 x3 x4 x5 x6 (ix2 g k)
      = rPoolSum zeroW (vec x2) (mat (val_main_v95 (F := Ideal) x0 x1 x3 x4 x5 x6)) g k := by
  unfold val_main_v98
  rw [GatherScatter.scatterAdd_rows_apply _ rfl rfl rfl rfl, val_main_v96_apply, val_main_cst_20_apply]
  simp only [batch_at]
  rfl

theorem memberCount_apply (g : Fin 512) :
    val_main_v104 (F := Ideal) x2 (ix1 g) = memberCount oneW zeroW (vec x2) g := by
  rw [val_main_v104_apply, val_main_v103_apply, val_main_cst_23_apply]
  unfold val_main_v102
  rw [show val_main_v101 (F := Ideal) x2 = val_main_v97 x2 from rfl, GatherScatter.scatterAdd_vec_apply _ rfl rfl rfl rfl, val_main_v100_apply, val_main_cst_22_apply]
  simp only [batch_at, val_main_v99_apply, val_main_cst_21_apply]
  rfl

theorem ref_pool (g : Fin 512) (o : Fin 2) :
    val_main_v111 (F := Ideal) x0 x1 x2 x3 x4 x5 x6 x7 x8 (ix2 g o)
      = head (rPoolSum zeroW (vec x2) (mat (val_main_v95 (F := Ideal) x0 x1 x3 x4 x5 x6)))
          (memberCount oneW zeroW (vec x2)) (mat x7) (vec x8) g o := by
  refine (addf_apply _ _ _).trans (congrArg₂ (· + ·)
    ((val_main_v108_apply x0 x1 x2 x3 x4 x5 x6 x7 _).trans
      (Finset.sum_congr rfl fun k _ => congrArg₂ (· * ·) ?_ (congrArg x7 (eq_ix2 _))))
    ((val_main_v110_apply x8 _).trans ((val_main_v109_apply x8 _).trans (congrArg x8 (eq_ix1 _)))))
  rw [show lidx_main_v108 (ix2 g o) k = ix2 g k from eq_ix2 _, val_main_v107_apply, pooledSum_apply,
    val_main_v106_apply, val_main_v105_apply, show idx_main_v105 (idx_main_v106 (ix2 g k)) = ix1 g from eq_ix1 _,
    memberCount_apply]
  rfl

end Cert.ReferenceIdeal.RefValue

end
-- ==== Proof.RefValue.lean ====
import proofs.«414462_j27805618274378_3_alg».proof.Proof.RefImports
import proofs.«414462_j27805618274378_3_alg».proof.Proof.Spec
import proofs.«414462_j27805618274378_3_alg».proof.Proof.Consts
import proofs.«414462_j27805618274378_3_alg».proof.Proof.Views
import proofs.«414462_j27805618274378_3_alg».proof.Proof.RefLayer1
import proofs.«414462_j27805618274378_3_alg».proof.Proof.RefLayer2
import proofs.«414462_j27805618274378_3_alg».proof.Proof.RefPool

noncomputable section

open scoped BigOperators

namespace Cert.ReferenceIdeal.RefValue

open Cert.ReferenceIdeal Cert.ReferenceIdeal.Gen Cert.ReferenceIdeal.ReadP Idealize.ShloMosaic Idealize.ShloMosaic.ValueIdx GcnSpec

theorem ref_value (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x2, .f32⟩ : BufTy).Contents (Elt Ideal))
    (x8 : (⟨S2, .f32⟩ : BufTy).Contents (Elt Ideal)) (g : Fin 512) (o : Fin 2) :
    val_main_v111 (F := Ideal) x0 x1 x2 x3 x4 x5 x6 x7 x8 (ix2 g o)
      = rNet (N := 50000) (by decide) oneW zeroW (rowOf x1 0) (rowOf x1 1) (vec x2) (mat x0) (mat x3) (vec x4) (mat x5)
          (vec x6) (mat x7) (vec x8) g o := by
  have h1 : mat (val_main_v47 (F := Ideal) x0 x1 x3 x4) = _ := funext₂ (ref_layer1 x0 x1 x3 x4)
  have h2 : mat (val_main_v95 (F := Ideal) x0 x1 x3 x4 x5 x6) = _ := funext₂ (ref_layer2 x0 x1 x3 x4 x5 x6)
  rw [ref_pool, h2, h1]
  rfl

end Cert.ReferenceIdeal.RefValue

end
-- ==== Proof.AlgebraLayer.lean ====
import proofs.«414462_j27805618274378_3_alg».proof.Proof.Spec
import Mathlib.Algebra.BigOperators.Fin
import Idealize.ShloMosaic.Lib.WordArith

noncomputable section

open scoped BigOperators

namespace GcnSpec

open Idealize.ShloMosaic

def IsReal (x : EReal) : Prop := ∃ r : ℝ, x = (r : EReal)

theorem isReal_zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, rfl⟩

theorem IsReal.mul {x y : EReal} (hx : IsReal x) (hy : IsReal y) : IsReal (x * y) := by
  obtain ⟨a, rfl⟩ := hx
  obtain ⟨b, rfl⟩ := hy
  exact ⟨a * b, rfl⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) :
    IsReal (∑ i ∈ s, f i) :=
  Finset.sum_induction f IsReal (fun _ _ => IsReal.add) isReal_zero h

theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

theorem readRow_of_lands {N : ℕ} (hN : 0 < N) (v : BitVec 32) (i : Fin N) (h : lands v i) :
    readRow N hN v = i := by
  have h' : v.toInt = (i.val : ℤ) := h
  have hnot : ¬ (v.slt 0#32 = true) := by
    rw [BitVec.slt_iff_toInt_lt, BitVec.toInt_zero]; omega
  refine Fin.ext ?_
  simp only [readRow, wrapId, if_neg hnot]
  omega

theorem lands_ofNat_iff {N : ℕ} (hN31 : N ≤ 2 ^ 31) (n i : Fin N) :
    lands (BitVec.ofNat 32 n.val) i ↔ n = i := by
  rw [lands, WordArith.toInt_ofNat_small _ (by omega), Nat.cast_inj, Fin.val_inj]

theorem withLoops_castAdd {E N : ℕ} (ids : Ids E) (e : Fin E) :
    withLoops (N := N) ids (Fin.castAdd N e) = ids e :=
  dif_pos (show (Fin.castAdd N e).val < E from e.isLt)

theorem withLoops_natAdd {E N : ℕ} (ids : Ids E) (n : Fin N) :
    withLoops (N := N) ids (Fin.natAdd E n) = BitVec.ofNat 32 n.val := by
  unfold withLoops
  have h : ¬ ((Fin.natAdd E n).val < E) := by rw [Fin.coe_natAdd]; omega
  rw [dif_neg h, Fin.coe_natAdd, Nat.add_sub_cancel_left]

-- The edges with self loops appended: an original edge lands as before, and of the loops exactly loop `i` lands on `i`.
theorem sum_withLoops {E N : ℕ} (hN : 0 < N) (hN31 : N ≤ 2 ^ 31) (src dst : Ids E) (i : Fin N)
    (g : Fin N → Fin N → EReal) :
    ∑ e ∈ Finset.univ.filter (fun e : Fin (E + N) => lands (withLoops (N := N) dst e) i),
        g (readRow N hN (withLoops (N := N) src e)) (readRow N hN (withLoops (N := N) dst e))
      = ∑ e ∈ Finset.univ.filter (fun e : Fin E => lands (dst e) i), g (readRow N hN (src e)) i + g i i := by
  rw [Finset.sum_filter, Fin.sum_univ_add, Finset.sum_filter]
  congr 1
  · refine Finset.sum_congr rfl fun e _ => ?_
    rw [withLoops_castAdd, withLoops_castAdd]
    exact ite_congr rfl (fun h => by rw [readRow_of_lands hN _ _ h]) fun _ => rfl
  · simp only [withLoops_natAdd, lands_ofNat_iff hN31, Finset.sum_ite_eq', Finset.mem_univ, if_true,
      readRow_of_lands hN _ i ((lands_ofNat_iff hN31 i i).2 rfl)]

theorem kDeg_real {E N : ℕ} (dst : Ids E) (i : Fin N) :
    ∃ r : ℝ, 0 < r ∧ kDeg (N := N) ((1 : ℝ) : EReal) 0 dst i = (r : EReal) := by
  refine ⟨(∑ _e ∈ Finset.univ.filter (fun e : Fin E => lands (dst e) i), (1 : ℝ)) + 1, by positivity, ?_⟩
  unfold kDeg
  rw [zero_add, EReal.coe_add, coe_sum]

def dK {E N : ℕ} (one zero : EReal) (dst : Ids E) : Col N := fun i => Ideal.rsqrt (kDeg one zero dst i)

theorem dK_real {E N : ℕ} (dst : Ids E) (i : Fin N) : IsReal (dK (N := N) ((1 : ℝ) : EReal) 0 dst i) := by
  obtain ⟨r, hr, h⟩ := kDeg_real dst i
  unfold dK
  rw [h, Ideal.rsqrt_coe, if_neg (not_lt.mpr hr.le), if_neg hr.ne']
  exact ⟨_, rfl⟩

theorem rDinv_withLoops {E N : ℕ} (hN : 0 < N) (hN31 : N ≤ 2 ^ 31) (dst : Ids E) :
    rDinv (N := N) 0 (rDeg ((1 : ℝ) : EReal) 0 (withLoops (N := N) dst)) = dK ((1 : ℝ) : EReal) 0 dst := by
  funext i
  obtain ⟨r, hr, h⟩ := kDeg_real dst i
  have e : rDeg ((1 : ℝ) : EReal) 0 (withLoops (N := N) dst) i = kDeg ((1 : ℝ) : EReal) 0 dst i := by
    unfold rDeg kDeg
    rw [sum_withLoops hN hN31 dst dst i fun _ _ => _, add_assoc]
  unfold rDinv dK
  rw [e, h, if_pos (EReal.coe_pos.mpr hr)]

theorem prod_real {N K H : ℕ} (X : Mat N K) (W : Mat K H) (hX : ∀ r c, IsReal (X r c)) (hW : ∀ c j, IsReal (W c j))
    (r : Fin N) (j : Fin H) : IsReal (prod X W r j) :=
  IsReal.sum _ _ (fun c _ => (hX r c).mul (hW c j))

-- Over the reals the outer factor distributes over the edge sum and the loop term.
theorem entry_identity {ι : Type} (F : Finset ι) (a u : ι → EReal) (d t : EReal)
    (ha : ∀ e, IsReal (a e)) (hu : ∀ e, IsReal (u e)) (hd : IsReal d) (ht : IsReal t) :
    d * ((0 + ∑ e ∈ F, a e * u e) + t * d) = 0 + (∑ e ∈ F, a e * (u e * d) + t * (d * d)) := by
  choose a' ha' using ha
  choose u' hu' using hu
  obtain ⟨d', rfl⟩ := hd
  obtain ⟨t', rfl⟩ := ht
  simp only [ha', hu', zero_add, ← EReal.coe_mul, ← coe_sum, ← EReal.coe_add]
  congr 1
  rw [mul_add, Finset.mul_sum]
  congr 1
  · exact Finset.sum_congr rfl fun e _ => by ring
  · ring

theorem kLayer_eq_rLayer {E N K H : ℕ} (hN : 0 < N) (hN31 : N ≤ 2 ^ 31) (one zero : EReal)
    (h1 : one = ((1 : ℝ) : EReal)) (h0 : zero = 0)
    (src dst : Ids E) (X : Mat N K) (W : Mat K H) (b : Col H)
    (hX : ∀ r c, IsReal (X r c)) (hW : ∀ c j, IsReal (W c j)) :
    kLayer hN one zero src dst X W b
      = rLayer hN one zero (withLoops (N := N) src) (withLoops (N := N) dst) X W b := by
  subst h1 h0
  funext i j
  unfold kLayer rLayer kFinal kScat kScaled
  simp only [rDinv_withLoops hN hN31]
  congr 2
  rw [sum_withLoops hN hN31 src dst i
    (fun s t => (∑ c : Fin K, X s c * W c j) * (dK ((1 : ℝ) : EReal) 0 dst s * dK ((1 : ℝ) : EReal) 0 dst t))]
  exact entry_identity _ _ _ _ _ (fun e => prod_real X W hX hW _ j) (fun e => dK_real dst _) (dK_real dst i)
    (prod_real X W hX hW i j)

theorem kLayer_real {E N K H : ℕ} (hN : 0 < N) (one zero : EReal) (h1 : one = ((1 : ℝ) : EReal)) (h0 : zero = 0)
    (src dst : Ids E) (X : Mat N K) (W : Mat K H) (b : Col H)
    (hX : ∀ r c, IsReal (X r c)) (hW : ∀ c j, IsReal (W c j)) (hb : ∀ j, IsReal (b j)) :
    ∀ r j, IsReal (kLayer hN one zero src dst X W b r j) := by
  subst h1 h0
  intro r j
  have hT := fun s => prod_real X W hX hW s j
  exact (((dK_real dst r).mul ((isReal_zero.add (IsReal.sum _ _ fun e _ => (hT _).mul (dK_real dst _))).add
    ((hT r).mul (dK_real dst r)))).add (hb j)).max isReal_zero

end GcnSpec

end
-- ==== Proof.Algebra.lean ====
import proofs.«414462_j27805618274378_3_alg».proof.Proof.Spec
import proofs.«414462_j27805618274378_3_alg».proof.Proof.AlgebraLayer
import Idealize.ShloMosaic.Lib.WordArith

noncomputable section

open scoped BigOperators

namespace GcnSpec

open Idealize.ShloMosaic

theorem kPoolSum_eq_rPoolSum {N H G : ℕ} (hG31 : G ≤ 2 ^ 31) (one zero : EReal) (h1 : one = ((1 : ℝ) : EReal)) (h0 : zero = 0)
    (batch : Ids N) (X : Mat N H) : (kPoolSum one zero batch X : Mat G H) = rPoolSum zero batch X := by
  subst h1 h0
  funext g k
  unfold kPoolSum rPoolSum
  rw [zero_add, Finset.sum_filter]
  refine Finset.sum_congr rfl fun n _ => ?_
  simp only [← BitVec.toInt_inj, WordArith.toInt_ofNat_small g.val (by omega), ite_mul, EReal.coe_one, one_mul, zero_mul]

theorem kNet_eq_rNet {E N K H G O : ℕ} (hN : 0 < N) (hN31 : N ≤ 2 ^ 31) (hG31 : G ≤ 2 ^ 31) (one zero : EReal) (h1 : one = ((1 : ℝ) : EReal)) (h0 : zero = 0)
    (src dst : Ids E) (batch : Ids N) (X : Mat N K) (W1 : Mat K H) (b1 : Col H) (W2 : Mat H H) (b2 : Col H) (Wl : Mat H O) (bl : Col O)
    (hX : ∀ r c, IsReal (X r c)) (hW1 : ∀ c j, IsReal (W1 c j)) (hb1 : ∀ j, IsReal (b1 j)) (hW2 : ∀ c j, IsReal (W2 c j)) :
    (kNet hN one zero src dst batch X W1 b1 W2 b2 Wl bl : Mat G O) = rNet hN one zero src dst batch X W1 b1 W2 b2 Wl bl := by
  have e1 := kLayer_eq_rLayer hN hN31 one zero h1 h0 src dst X W1 b1 hX hW1
  have e2 := kLayer_eq_rLayer hN hN31 one zero h1 h0 src dst _ W2 b2
    (kLayer_real hN one zero h1 h0 src dst X W1 b1 hX hW1 hb1) hW2
  dsimp only [kNet, rNet]
  rw [kPoolSum_eq_rPoolSum hG31 one zero h1 h0, e2, e1]

end GcnSpec

end
-- ==== Proof.Finite.lean ====
import proofs.«414462_j27805618274378_3_alg».proof.Defs
import proofs.«414462_j27805618274378_3_alg».proof.Proof.Gen.Pre_finite_inputs
import Idealize.ShloMosaic.Lib.ReduceAll
import Idealize.ShloMosaic.PureOps.Ideal.Laws
import Idealize.ShloMosaic.Lib.ValueIdx

noncomputable section

namespace Cert.KernelIdeal.Hand

open Idealize.ShloMosaic Idealize.SL.Sem

theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec
  case coe r => exact ⟨r, rfl⟩
  all_goals simp [Ideal.cmp] at h

instance subsingleton_scalarIdx : Subsingleton (⟨0, ![]⟩ : Shape).Idx := ⟨fun a b => funext fun d => d.elim0⟩

theorem real_of_all {s : Shape} {axes : List (Fin s.rank)} {a : FVec Ideal s .f32}
    {hb : (⟨0, ![]⟩ : Shape).BroadcastsInDim s (![] : Fin 0 → Fin s.rank)} {hr : s.ReducesTo axes (⟨0, ![]⟩ : Shape)}
    {hu : 0 < (⟨0, ![]⟩ : Shape).numel} {init : IVec (⟨0, ![]⟩ : Shape) 1} {j : (⟨0, ![]⟩ : Shape).Idx}
    (e : Host.reduce IntOp.andi
          (cmpf .olt (Host.absf a) (broadcastInDim s ![] hb (constant (⟨0, ![]⟩ : Shape) .f32 0x7F800000#32))) init hr hu j = 1#1)
    (i : s.Idx) : ∃ r : ℝ, (a : s.Idx → EReal) i = (r : EReal) :=
  real_of_abs_lt (a i) (Host.reduce_andi_all _ init hr hu j e i)

theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, (m ((c.tc : Thread Cert.KernelIdeal.nD Cert.KernelIdeal.τ).loc Cert.KernelIdeal.main_arg0) : Cert.KernelIdeal.S50000x128.Idx → EReal) i = (r : EReal))
    ∧ (∀ i, ∃ r : ℝ, (m ((c.tc : Thread Cert.KernelIdeal.nD Cert.KernelIdeal.τ).loc Cert.KernelIdeal.main_arg3) : Cert.KernelIdeal.S128x64.Idx → EReal) i = (r : EReal))
    ∧ (∀ i, ∃ r : ℝ, (m ((c.tc : Thread Cert.KernelIdeal.nD Cert.KernelIdeal.τ).loc Cert.KernelIdeal.main_arg4) : Cert.KernelIdeal.S64.Idx → EReal) i = (r : EReal))
    ∧ (∀ i, ∃ r : ℝ, (m ((c.tc : Thread Cert.KernelIdeal.nD Cert.KernelIdeal.τ).loc Cert.KernelIdeal.main_arg5) : Cert.KernelIdeal.S64x64.Idx → EReal) i = (r : EReal))
    ∧ (∀ i, ∃ r : ℝ, (m ((c.tc : Thread Cert.KernelIdeal.nD Cert.KernelIdeal.τ).loc Cert.KernelIdeal.main_arg6) : Cert.KernelIdeal.S64.Idx → EReal) i = (r : EReal))
    ∧ (∀ i, ∃ r : ℝ, (m ((c.tc : Thread Cert.KernelIdeal.nD Cert.KernelIdeal.τ).loc Cert.KernelIdeal.main_arg7) : Cert.KernelIdeal.S64x2.Idx → EReal) i = (r : EReal))
    ∧ (∀ i, ∃ r : ℝ, (m ((c.tc : Thread Cert.KernelIdeal.nD Cert.KernelIdeal.τ).loc Cert.KernelIdeal.main_arg8) : Cert.KernelIdeal.S2.Idx → EReal) i = (r : EReal)) := by

  have h0 := congrFun (h c) ValueIdx.ix0
  dsimp only [Cert.Pre_finite_inputs.fn, Cert.Pre_finite_inputs.fn_part1, andi] at h0
  simp only [IntOp.andi_eq_one] at h0
  obtain ⟨⟨⟨⟨⟨⟨e0, e3⟩, e4⟩, e5⟩, e6⟩, e7⟩, e8⟩ := h0
  exact ⟨real_of_all e0, real_of_all e3, real_of_all e4, real_of_all e5, real_of_all e6, real_of_all e7, real_of_all e8⟩

end Cert.KernelIdeal.Hand

end
-- ==== Proof.lean ====
import proofs.«414462_j27805618274378_3_alg».proof.Defs
import proofs.«414462_j27805618274378_3_alg».proof.Proof.Gen.Kernel
import proofs.«414462_j27805618274378_3_alg».proof.Proof.Gen.KernelIdeal
import proofs.«414462_j27805618274378_3_alg».proof.Proof.Gen.ReferenceIdeal
import proofs.«414462_j27805618274378_3_alg».proof.Proof.Gen.Pre_finite_inputs
import proofs.«414462_j27805618274378_3_alg».proof.Proof.Run
import proofs.«414462_j27805618274378_3_alg».proof.Proof.RunBits
import proofs.«414462_j27805618274378_3_alg».proof.Proof.KernelValue
import proofs.«414462_j27805618274378_3_alg».proof.Proof.RefValue
import proofs.«414462_j27805618274378_3_alg».proof.Proof.Algebra
import proofs.«414462_j27805618274378_3_alg».proof.Proof.Finite
import proofs.«414462_j27805618274378_3_alg».proof.Proof.Consts
import proofs.«414462_j27805618274378_3_alg».proof.Proof.LibIds

noncomputable section

namespace Cert.Proof

open Idealize.ShloMosaic Idealize.ShloMosaic.ValueIdx Idealize.SL.Sem

-- The run of @main ends with the arguments as launched, at words and at the exact reading alike.
theorem frame_kernel : Cert.frame_Kernel := fun m ρ _ =>
  (θ_run Cert.Kernel.defs _ _).mono (fun _ h c => (h c).2) (Cert.Kernel.Hand.result_run (F := Bits) m ρ)

theorem frame_kernelIdeal : Cert.frame_KernelIdeal := fun m ρ _ =>
  (θ_run Cert.KernelIdeal.defs _ _).mono (fun _ h c => (h c).2) (Cert.KernelIdeal.Hand.result_run (F := Ideal) m ρ)

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

-- The kernel adds each node's own term in closed form where the reference appends loop edges: over finite inputs the same sums of reals.
theorem algebraic : Cert.algebraic_KernelIdeal_ReferenceIdeal := by
  intro m ρ m' ρ' hpre hagree
  refine ⟨fun c => Cert.KernelIdeal.Hand.W9 (F := Ideal) m c (Proc.devRef .tc Cert.KernelIdeal.main_v47),
    Cert.KernelIdeal.Hand.result_run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  obtain ⟨r0, r3, r4, r5, r6, _, _⟩ := Cert.KernelIdeal.Hand.real_of_pre m hpre c
  rw [Cert.ReferenceIdeal.ReadP.val_main_v111_eq, e0, e1, e2, e3, e4, e5, e6, e7, e8]
  funext i
  obtain ⟨g, o, rfl⟩ : ∃ (g : Fin 512) (o : Fin 2), i = ix2 g o := ⟨i 0, i 1, eq_ix2 i⟩
  refine (Cert.ReferenceIdeal.RefValue.ref_value _ _ _ _ _ _ _ _ _ g o).trans ?_
  refine Eq.trans ?_ (Cert.KernelIdeal.Hand.kernel_value m c g o).symm
  exact (congrFun (congrFun (GcnSpec.kNet_eq_rNet (by decide) (by decide) (by decide) GcnSpec.oneW GcnSpec.zeroW
    GcnSpec.oneW_eq GcnSpec.zeroW_eq _ _ _ _ _ _ _ _ _ _
    (fun r c' => r0 _) (fun c' j => r3 _) (fun j => r4 _) (fun c' j => r5 _)) g) o).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
